-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v153) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x24x12 : Shape := ⟨4, ![32, 2048, 24, 12]⟩
abbrev S64 : Shape := ⟨1, ![64]⟩
abbrev S_ : Shape := ⟨0, ![]⟩

class Facts : Prop where
  bcast_S_S32x2048x24x12 : S_.BroadcastsInDim S32x2048x24x12 (![] : Fin 0 → Fin S32x2048x24x12.rank)
  reducesTo_S32x2048x24x12_S_d0_1_2_3 : S32x2048x24x12.ReducesTo [0, 1, 2, 3] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg3 : IVec S64 32) (main_v12 : IVec S_ 1) (main_v15 : IVec S_ 1) : IVec S_ 1 :=
  let main_v16 : IVec S_ 1 := andi main_v12 main_v15
  let main_c_6 : IVec S_ 32 := constantI S_ 32 0#32
  let main_v17 : IVec S64 32 := broadcastInDim S64 ![] bcast_S_S64 main_c_6
  let main_v18 : IVec S64 1 := cmpi .sge main_arg3 main_v17
  let main_c_7 : IVec S_ 1 := constantI S_ 1 1#1
  let main_v19 : IVec S_ 1 := (fun x v => Host.reduce IntOp.andi x v reducesTo_S64_S_d0 h_S_) main_v18 main_c_7
  let main_v20 : IVec S_ 1 := andi main_v16 main_v19
  let main_c_8 : IVec S_ 32 := constantI S_ 32 64#32
  let main_v21 : IVec S64 32 := broadcastInDim S64 ![] bcast_S_S64 main_c_8
  let main_v22 : IVec S64 1 := cmpi .slt main_arg3 main_v21
  let main_c_9 : IVec S_ 1 := constantI S_ 1 1#1
  let main_v23 : IVec S_ 1 := (fun x v => Host.reduce IntOp.andi x v reducesTo_S64_S_d0 h_S_) main_v22 main_c_9
  let main_v24 : IVec S_ 1 := andi main_v20 main_v23
  main_v24

def fn {F : FTy → Type} [FloatOps F] (main_arg0 : FVec F S32x2048x24x12 .f32) (main_arg1 : FVec F S32x2048x24x12 .f32) (main_arg2 : IVec S64 32) (main_arg3 : IVec S64 32) : IVec S_ 1 :=
  let main_v0 : FVec F S32x2048x24x12 .f32 := Host.absf main_arg0
  let main_cst : FVec F S_ .f32 := constant S_ .f32 0x7F800000#32
  let main_v1 : FVec F S32x2048x24x12 .f32 := broadcastInDim S32x2048x24x12 ![] bcast_S_S32x2048x24x12 main_cst
  let main_v2 : IVec S32x2048x24x12 1 := cmpf .olt main_v0 main_v1
  let main_c : IVec S_ 1 := constantI S_ 1 1#1
  let main_v3 : IVec S_ 1 := (fun x v => Host.reduce IntOp.andi x v reducesTo_S32x2048x24x12_S_d0_1_2_3 h_S_) main_v2 main_c
  let main_v4 : FVec F S32x2048x24x12 .f32 := Host.absf main_arg1
  let main_cst_0 : FVec F S_ .f32 := constant S_ .f32 0x7F800000#32
  let main_v5 : FVec F S32x2048x24x12 .f32 := broadcastInDim S32x2048x24x12 ![] bcast_S_S32x2048x24x12 main_cst_0
  let main_v6 : IVec S32x2048x24x12 1 := cmpf .olt main_v4 main_v5
  let main_c_1 : IVec S_ 1 := constantI S_ 1 1#1
  let main_v7 : IVec S_ 1 := (fun x v => Host.reduce IntOp.andi x v reducesTo_S32x2048x24x12_S_d0_1_2_3 h_S_) main_v6 main_c_1
  let main_v8 : IVec S_ 1 := andi main_v3 main_v7
  let main_c_2 : IVec S_ 32 := constantI S_ 32 0#32
  let main_v9 : IVec S64 32 := broadcastInDim S64 ![] bcast_S_S64 main_c_2
  let main_v10 : IVec S64 1 := cmpi .sge main_arg2 main_v9
  let main_c_3 : IVec S_ 1 := constantI S_ 1 1#1
  let main_v11 : IVec S_ 1 := (fun x v => Host.reduce IntOp.andi x v reducesTo_S64_S_d0 h_S_) main_v10 main_c_3
  let main_v12 : IVec S_ 1 := andi main_v8 main_v11
  let main_c_4 : IVec S_ 32 := constantI S_ 32 64#32
  let main_v13 : IVec S64 32 := broadcastInDim S64 ![] bcast_S_S64 main_c_4
  let main_v14 : IVec S64 1 := cmpi .slt main_arg2 main_v13
  let main_c_5 : IVec S_ 1 := constantI S_ 1 1#1
  let main_v15 : IVec S_ 1 := (fun x v => Host.reduce IntOp.andi x v reducesTo_S64_S_d0 h_S_) main_v14 main_c_5
  fn_part1 (F := F) main_arg3 main_v12 main_v15
-- ==== Kernel.lean ====
abbrev S32x2048x24x12 : Shape := ⟨4, ![32, 2048, 24, 12]⟩
abbrev S64 : Shape := ⟨1, ![64]⟩
abbrev S64x2048x24x12 : Shape := ⟨4, ![64, 2048, 24, 12]⟩
abbrev S64x8x256x288 : Shape := ⟨4, ![64, 8, 256, 288]⟩
abbrev S64x1x288 : Shape := ⟨3, ![64, 1, 288]⟩
abbrev S1x8x256x288 : Shape := ⟨4, ![1, 8, 256, 288]⟩
abbrev S1 : Shape := ⟨1, ![1]⟩
abbrev S1x1x288 : Shape := ⟨3, ![1, 1, 288]⟩
abbrev S1x288 : Shape := ⟨2, ![1, 288]⟩
abbrev S1x4x256x288 : Shape := ⟨4, ![1, 4, 256, 288]⟩
abbrev S4x256x288 : Shape := ⟨3, ![4, 256, 288]⟩
abbrev S4x288 : Shape := ⟨2, ![4, 288]⟩
abbrev S4 : Shape := ⟨1, ![4]⟩
abbrev S4x1 : Shape := ⟨2, ![4, 1]⟩
abbrev S4x1x288 : Shape := ⟨3, ![4, 1, 288]⟩
abbrev S4x288x288 : Shape := ⟨3, ![4, 288, 288]⟩
abbrev S4x288x1 : Shape := ⟨3, ![4, 288, 1]⟩
abbrev S1x1 : Shape := ⟨2, ![1, 1]⟩
abbrev S64x288 : Shape := ⟨2, ![64, 288]⟩
abbrev S_ : Shape := ⟨0, ![]⟩
abbrev S288 : Shape := ⟨1, ![288]⟩

abbrev nBuf : Space → Nat
  | .hbm => 19
  | .vmem => 15
  | .smem => 2
  | _ => 0

abbrev bufTy : (tb : Table) → Fin (tcTables nBuf tb) → BufTy
  | .hbm, ⟨0, _⟩ => ⟨S32x2048x24x12, .f32⟩
  | .hbm, ⟨1, _⟩ => ⟨S32x2048x24x12, .f32⟩
  | .hbm, ⟨2, _⟩ => ⟨S64x2048x24x12, .f32⟩
  | .hbm, ⟨3, _⟩ => ⟨S64x8x256x288, .f32⟩
  | .hbm, ⟨4, _⟩ => ⟨S64x8x256x288, .f32⟩
  | .hbm, ⟨5, _⟩ => ⟨S64x1x288, .f32⟩
  | .hbm, ⟨6, _⟩ => ⟨S64x1x288, .f32⟩
  | .hbm, ⟨7, _⟩ => ⟨S64x2048x24x12, .f32⟩
  | .hbm, ⟨8, _⟩ => ⟨S64x288, .f32⟩
  | .hbm, ⟨9, _⟩ => ⟨S64x288, .f32⟩
  | .hbm, ⟨10, _⟩ => ⟨S_, .f32⟩
  | .hbm, ⟨11, _⟩ => ⟨S288, .f32⟩
  | .hbm, ⟨12, _⟩ => ⟨S_, .f32⟩
  | .hbm, ⟨13, _⟩ => ⟨S288, .f32⟩
  | .hbm, ⟨14, _⟩ => ⟨S288, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1x8x256x288, .f32⟩
  | .local _ .vmem, ⟨1, _⟩ => ⟨S1x8x256x288, .f32⟩
  | .local _ .vmem, ⟨2, _⟩ => ⟨S1x8x256x288, .f32⟩
  | .local _ .vmem, ⟨3, _⟩ => ⟨S1x8x256x288, .f32⟩
  | .local _ .vmem, ⟨4, _⟩ => ⟨S1x8x256x288, .f32⟩
  | .local _ .vmem, ⟨5, _⟩ => ⟨S1x8x256x288, .f32⟩
  | .local _ .vmem, ⟨6, _⟩ => ⟨S1x8x256x288, .f32⟩
  | .local _ .vmem, ⟨7, _⟩ => ⟨S1x8x256x288, .f32⟩
  | .local _ .vmem, ⟨8, _⟩ => ⟨S1x1x288, .f32⟩
  | .local _ .vmem, ⟨9, _⟩ => ⟨S1x1x288, .f32⟩
  | .local _ .vmem, ⟨10, _⟩ => ⟨S1x1x288, .f32⟩
  | .local _ .vmem, ⟨11, _⟩ => ⟨S1x1x288, .f32⟩
  | .local _ .vmem, ⟨12, _⟩ => ⟨S1x288, .f32⟩
  | .local _ .vmem, ⟨13, _⟩ => ⟨S1x288, .f32⟩
  | .local _ .vmem, ⟨14, _⟩ => ⟨S1x288, .f32⟩
  | .local _ .smem, ⟨0, _⟩ => ⟨S64, .i32⟩
  | .local _ .smem, ⟨1, _⟩ => ⟨S64, .i32⟩
  | _, _ => ⟨S32x2048x24x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32 : BitVec 32 := 0#32
  let c2_i32 : BitVec 32 := 2#32
  let v12 : BitVec 32 := Scalar.addi c0_i32 c2_i32
  let c1_i32 : BitVec 32 := 1#32
  ⟨c0_i32, v12, c1_i32⟩
def k0_mult1 (k0_t1 : Fin k0_t1_loop.trips) : BitVec 32 :=
  let c0_i32_26 : BitVec 32 := 0#32
  let c0_i32 : BitVec 32 := 0#32
  let c1_i32 : BitVec 32 := 1#32
  let arg12 : BitVec 32 := Scf.iv c0_i32 c1_i32 k0_t1
  let c1_i32_25 : BitVec 32 := 1#32
  let v39 : BitVec 32 := Scalar.muli arg12 c1_i32_25
  let v40 : BitVec 32 := Scalar.addi c0_i32_26 v39
  let c4_i32 : BitVec 32 := 4#32
  let v41 : BitVec 32 := Scalar.muli v40 c4_i32
  v41
def k0_off2 (k0_t1 : Fin k0_t1_loop.trips) : Fin 4 → Nat :=
  let c0_27 : Index := 0#32
  let c0_i32_26 : BitVec 32 := 0#32
  let c0_i32 : BitVec 32 := 0#32
  let c1_i32 : BitVec 32 := 1#32
  let arg12 : BitVec 32 := Scf.iv c0_i32 c1_i32 k0_t1
  let c1_i32_25 : BitVec 32 := 1#32
  let v39 : BitVec 32 := Scalar.muli arg12 c1_i32_25
  let v40 : BitVec 32 := Scalar.addi c0_i32_26 v39
  let c4_i32 : BitVec 32 := 4#32
  let v41 : BitVec 32 := Scalar.muli v40 c4_i32
  let v42 : BitVec 32 := v41
  let v43 : Index := Scalar.indexCast v42
  let c0_28 : Index := 0#32
  let c0_29 : Index := 0#32
  ![0, v43.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (k0_off1_inb : ∀ i : grid0.Coords, ∀ a, (k0_off1 i) a + S1.size a ≤ S64.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (k0_off1_inb : ∀ i : grid0.Coords, ∀ a, (k0_off1 i) a + S1.size a ≤ S64.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S64) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x256x288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x256x288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x256x288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x256x288 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x288 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x288 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S32x2048x24x12_S32x2048x24x12_S64x2048x24x12_d0 : Shape.Concatenates [S32x2048x24x12, S32x2048x24x12] S64x2048x24x12 0
  shapeCasts_S64x2048x24x12_S64x8x256x288 : S64x2048x24x12.ShapeCasts S64x8x256x288
  numel1_S1 : S1.numel = 1
  inb_S1x288_S1x288_0_0 : ∀ a, (![0, 0] : Fin 2 → Nat) a + S1x288.size a ≤ S1x288.size a
  h_S1x288 : 0 < S1x288.numel
  shapeCasts_S1x288_S1x288 : S1x288.ShapeCasts S1x288
  h_S1x4x256x288 : 0 < S1x4x256x288.numel
  shapeCasts_S1x4x256x288_S4x256x288 : S1x4x256x288.ShapeCasts S4x256x288
  reduces_S4x256x288_S4x288 : S4x256x288.Reduces [1] S4x288
  reduces_S4x288_S4 : S4x288.Reduces [1] S4
  shapeCasts_S4_S4x1 : S4.ShapeCasts S4x1
  broadcasts_S4x1_S4x288 : S4x1.Broadcasts S4x288
  shapeCasts_S4x288_S4x1x288 : S4x288.ShapeCasts S4x1x288
  broadcasts_S4x1x288_S4x256x288 : S4x1x288.Broadcasts S4x256x288
  bitsLt_bf16_f32 : FTy.bits .bf16 < FTy.bits .f32
  reduces_S4x288x288_S4x288 : S4x288x288.Reduces [2] S4x288
  shapeCasts_S4x288_S4x288x1 : S4x288.ShapeCasts S4x288x1
  broadcasts_S4x288x1_S4x288x288 : S4x288x1.Broadcasts S4x288x288
  shapeCasts_S4x256x288_S1x4x256x288 : S4x256x288.ShapeCasts S1x4x256x288
  broadcasts_S4x1x288_S4x288x288 : S4x1x288.Broadcasts S4x288x288
  slices_S4x288_o0_0_S1x288 : S4x288.Slices ![0, 0] S1x288
  slices_S4x288_o1_0_S1x288 : S4x288.Slices ![1, 0] S1x288
  slices_S4x288_o2_0_S1x288 : S4x288.Slices ![2, 0] S1x288
  slices_S4x288_o3_0_S1x288 : S4x288.Slices ![3, 0] S1x288
  reduces_S1x288_S1 : S1x288.Reduces [1] S1
  shapeCasts_S1_S1x1 : S1.ShapeCasts S1x1
  broadcasts_S1x1_S1x288 : S1x1.Broadcasts S1x288
  shapeCasts_S1x288_S1x1x288 : S1x288.ShapeCasts S1x1x288
  inb_S1x1x288_S1x1x288_0_0_0 : ∀ a, (![0, 0, 0] : Fin 3 → Nat) a + S1x1x288.size a ≤ S1x1x288.size a
  h_S1x1x288 : 0 < S1x1x288.numel
  shapeCasts_S64x8x256x288_S64x2048x24x12 : S64x8x256x288.ShapeCasts S64x2048x24x12
  shapeCasts_S64x1x288_S64x288 : S64x1x288.ShapeCasts S64x288
  reducesTo_S64x288_S288_d0 : S64x288.ReducesTo [0] S288
  h_S_ : 0 < S_.numel
  reducesTo_S288_S_d0 : S288.ReducesTo [0] S_
  dot_S4x256x288_S4x256x288_S4x288x288_1_1_2_2_0_0_wf : DotDims.WF S4x256x288 S4x256x288 S4x288x288 [1] [1] [2] [2] [0] [0]
  dot_S4x256x288_S4x288x288_S4x256x288_2_2_1_1_0_0_wf : DotDims.WF S4x256x288 S4x288x288 S4x256x288 [2] [2] [1] [1] [0] [0]
  hrank0 : 0 < grid0.rank
  k0_off1_inb : ∀ i : grid0.Coords, ∀ a, (k0_off1 i) a + S1.size a ≤ S64.size a
  k0_t1_ok : k0_t1_loop.OK
  k0_mult1_dvd : ∀ k0_t1 : Fin k0_t1_loop.trips, 4 ∣ (k0_mult1 k0_t1).toNat
  k0_off2_inb : ∀ k0_t1 : Fin k0_t1_loop.trips, ∀ a, (k0_off2 k0_t1) a + S1x4x256x288.size a ≤ S1x8x256x288.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x256x288.size a ≤ S64x8x256x288.size a
  hwx0_0 : ∀ i : grid0.Coords, EltTy.bits .f32 = 32 ∨ (Rect.block (s := S64x8x256x288) S1x8x256x288.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x256x288.size a ≤ S64x8x256x288.size a
  hwx0_3 : ∀ i : grid0.Coords, EltTy.bits .f32 = 32 ∨ (Rect.block (s := S64x8x256x288) S1x8x256x288.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x288.size a ≤ S64x1x288.size a
  hwx0_4 : ∀ i : grid0.Coords, EltTy.bits .f32 = 32 ∨ (Rect.block (s := S64x1x288) S1x1x288.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x288.size a ≤ S64x1x288.size a
  hwx0_5 : ∀ i : grid0.Coords, EltTy.bits .f32 = 32 ∨ (Rect.block (s := S64x1x288) S1x1x288.size (cc0_transform_5 i) (hinb0_5 i)).WholeWords (EltTy.packing .f32)

variable [Facts₀]

def dot_S4x256x288_S4x256x288_S4x288x288_1_1_2_2_0_0 : DotDims S4x256x288 S4x256x288 S4x288x288 where
  lhsContracting := [1]
  rhsContracting := [1]
  lhsNonContracting := [2]
  rhsNonContracting := [2]
  lhsBatch := [0]
  rhsBatch := [0]
  wf := dot_S4x256x288_S4x256x288_S4x288x288_1_1_2_2_0_0_wf
def dot_S4x256x288_S4x288x288_S4x256x288_2_2_1_1_0_0 : DotDims S4x256x288 S4x288x288 S4x256x288 where
  lhsContracting := [2]
  rhsContracting := [2]
  lhsNonContracting := [1]
  rhsNonContracting := [1]
  lhsBatch := [0]
  rhsBatch := [0]
  wf := dot_S4x256x288_S4x288x288_S4x256x288_2_2_1_1_0_0_wf

abbrev spec0_0 : Pipeline.WinSpec sig grid0.rank :=
  Pipeline.WinSpec.ofSpec (Memref.whole main_v1) S1x8x256x288.size reads0_0 false false 2 stage0_0 sem0_0 nbuf0_0 hstage0_0

abbrev spec0_1 : Pipeline.WinSpec sig grid0.rank :=
  Pipeline.WinSpec.ofSpec (Memref.whole main_v1) S1x8x256x288.size reads0_1 false false 2 stage0_1 sem0_1 nbuf0_1 hstage0_1

abbrev spec0_2 : Pipeline.WinSpec sig grid0.rank :=
  Pipeline.WinSpec.ofSpec (Memref.whole main_v1) S1x8x256x288.size reads0_2 false false 2 stage0_2 sem0_2 nbuf0_2 hstage0_2

abbrev spec0_3 : Pipeline.WinSpec sig grid0.rank :=
  Pipeline.WinSpec.ofSpec (Memref.whole main_v2_0) S1x8x256x288.size reads0_3 true false 2 stage0_3 sem0_3 nbuf0_3 hstage0_3

abbrev spec0_4 : Pipeline.WinSpec sig grid0.rank :=
  Pipeline.WinSpec.ofSpec (Memref.whole main_v2_1) S1x1x288.size reads0_4 true false 2 stage0_4 sem0_4 nbuf0_4 hstage0_4

abbrev spec0_5 : Pipeline.WinSpec sig grid0.rank :=
  Pipeline.WinSpec.ofSpec (Memref.whole main_v2_2) S1x1x288.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 k0_off1_inb numel1_S1 pf | 2 => cc0_transform_2 k0_off1_inb numel1_S1 pf | 3 => cc0_transform_3 | 4 => cc0_transform_4 | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 | 4 => hreads0_4 | 5 => hreads0_5 | ⟨_ + 6, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x8x256x288.size a ≤ S64x8x256x288.size a), EltTy.bits .f32 = 32 ∨ (Rect.block (s := S64x8x256x288) S1x8x256x288.size (cc0_transform_1 k0_off1_inb numel1_S1 pf i) h).WholeWords (EltTy.packing .f32)) ∧
  (∀ i : grid0.Coords, ∃ h : (∀ a, (cc0_transform_2 k0_off1_inb numel1_S1 pf i a + 1) * S1x8x256x288.size a ≤ S64x8x256x288.size a), EltTy.bits .f32 = 32 ∨ (Rect.block (s := S64x8x256x288) S1x8x256x288.size (cc0_transform_2 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2 i).elim fun h _ => h a | 3 => hinb0_3 | 4 => hinb0_4 | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2 i).elim fun _ h => h | 3 => hwx0_3 | 4 => hwx0_4 | 5 => hwx0_5 | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S32x2048x24x12 : Shape := ⟨4, ![32, 2048, 24, 12]⟩
abbrev S64 : Shape := ⟨1, ![64]⟩
abbrev S64x2048x24x12 : Shape := ⟨4, ![64, 2048, 24, 12]⟩
abbrev S64x8x256x24x12 : Shape := ⟨5, ![64, 8, 256, 24, 12]⟩
abbrev S_ : Shape := ⟨0, ![]⟩
abbrev S64x1 : Shape := ⟨2, ![64, 1]⟩
abbrev S64x8x24x12 : Shape := ⟨4, ![64, 8, 24, 12]⟩
abbrev S64x8x288 : Shape := ⟨3, ![64, 8, 288]⟩
abbrev S64x8 : Shape := ⟨2, ![64, 8]⟩
abbrev S64x8x1 : Shape := ⟨3, ![64, 8, 1]⟩
abbrev S64x8x1x24x12 : Shape := ⟨5, ![64, 8, 1, 24, 12]⟩
abbrev S64x8x256x288 : Shape := ⟨4, ![64, 8, 256, 288]⟩
abbrev S64x8x288x256 : Shape := ⟨4, ![64, 8, 288, 256]⟩
abbrev S64x8x288x1 : Shape := ⟨4, ![64, 8, 288, 1]⟩
abbrev S64x8x288x288 : Shape := ⟨4, ![64, 8, 288, 288]⟩
abbrev S64x8x1x288 : Shape := ⟨4, ![64, 8, 1, 288]⟩
abbrev S64x288 : Shape := ⟨2, ![64, 288]⟩
abbrev S64x1x24x12 : Shape := ⟨4, ![64, 1, 24, 12]⟩
abbrev S64x24x12 : Shape := ⟨3, ![64, 24, 12]⟩
abbrev S1x64x24x12 : Shape := ⟨4, ![1, 64, 24, 12]⟩
abbrev S64x64x24x12 : Shape := ⟨4, ![64, 64, 24, 12]⟩

abbrev nBuf : Space → Nat
  | .hbm => 218
  | .vmem => 0
  | .smem => 0
  | _ => 0

abbrev hbmTy0_0 (i : Nat) : BufTy := match i % 128 with
  | 0 => ⟨S32x2048x24x12, .f32⟩
  | 1 => ⟨S32x2048x24x12, .f32⟩
  | 2 => ⟨S64, .i32⟩
  | 3 => ⟨S64, .i32⟩
  | 4 => ⟨S64x2048x24x12, .f32⟩
  | 5 => ⟨S64x8x256x24x12, .f32⟩
  | 6 => ⟨S_, .i32⟩
  | 7 => ⟨S64, .i32⟩
  | 8 => ⟨S64, .i1⟩
  | 9 => ⟨S_, .i32⟩
  | 10 => ⟨S64, .i32⟩
  | 11 => ⟨S64, .i32⟩
  | 12 => ⟨S64, .i32⟩
  | 13 => ⟨S64x1, .i32⟩
  | 14 => ⟨S64x2048x24x12, .f32⟩
  | 15 => ⟨S64x8x256x24x12, .f32⟩
  | 16 => ⟨S_, .i32⟩
  | 17 => ⟨S64, .i32⟩
  | 18 => ⟨S64, .i1⟩
  | 19 => ⟨S_, .i32⟩
  | 20 => ⟨S64, .i32⟩
  | 21 => ⟨S64, .i32⟩
  | 22 => ⟨S64, .i32⟩
  | 23 => ⟨S64x1, .i32⟩
  | 24 => ⟨S64x2048x24x12, .f32⟩
  | 25 => ⟨S64x8x256x24x12, .f32⟩
  | 26 => ⟨S64x8x256x24x12, .f32⟩
  | 27 => ⟨S_, .f32⟩
  | 28 => ⟨S64x8x24x12, .f32⟩
  | 29 => ⟨S64x8x24x12, .f32⟩
  | 30 => ⟨S64x8x288, .f32⟩
  | 31 => ⟨S_, .f32⟩
  | 32 => ⟨S64x8, .f32⟩
  | 33 => ⟨S64x8x1, .f32⟩
  | 34 => ⟨S64x8x288, .f32⟩
  | 35 => ⟨S64x8x288, .f32⟩
  | 36 => ⟨S_, .f32⟩
  | 37 => ⟨S64x8, .f32⟩
  | 38 => ⟨S64x8x1, .f32⟩
  | 39 => ⟨S_, .f32⟩
  | 40 => ⟨S64x8x1, .f32⟩
  | 41 => ⟨S64x8x1, .f32⟩
  | 42 => ⟨S64x8x288, .f32⟩
  | 43 => ⟨S64x8x288, .f32⟩
  | 44 => ⟨S64x8x1x24x12, .f32⟩
  | 45 => ⟨S64x8x256x288, .f32⟩
  | 46 => ⟨S64x8x288x256, .f32⟩
  | 47 => ⟨S64x8x256x288, .f32⟩
  | 48 => ⟨S64x8x288x256, .f32⟩
  | 49 => ⟨S64x8x288x256, .f32⟩
  | 50 => ⟨S_, .f32⟩
  | 51 => ⟨S64x8x288, .f32⟩
  | 52 => ⟨S64x8x288x1, .f32⟩
  | 53 => ⟨S64x8x288x1, .f32⟩
  | 54 => ⟨S_, .f32⟩
  | 55 => ⟨S64x8x288x1, .f32⟩
  | 56 => ⟨S64x8x288x1, .f32⟩
  | 57 => ⟨S64x8x288x256, .f32⟩
  | 58 => ⟨S64x8x288x256, .f32⟩
  | 59 => ⟨S64x8x288x256, .f32⟩
  | 60 => ⟨S_, .f32⟩
  | 61 => ⟨S64x8x288, .f32⟩
  | 62 => ⟨S64x8x288x1, .f32⟩
  | 63 => ⟨S64x8x288x1, .f32⟩
  | 64 => ⟨S_, .f32⟩
  | 65 => ⟨S64x8x288x1, .f32⟩
  | 66 => ⟨S64x8x288x1, .f32⟩
  | 67 => ⟨S64x8x288x256, .f32⟩
  | 68 => ⟨S64x8x288x256, .f32⟩
  | 69 => ⟨S64x8x288x288, .f32⟩
  | 70 => ⟨S_, .f32⟩
  | 71 => ⟨S64x8x288x288, .f32⟩
  | 72 => ⟨S64x8x288x288, .f32⟩
  | 73 => ⟨S_, .f32⟩
  | 74 => ⟨S64x8x288, .f32⟩
  | 75 => ⟨S_, .f32⟩
  | 76 => ⟨S64x8x288, .f32⟩
  | 77 => ⟨S64x8x288, .f32⟩
  | 78 => ⟨S64x8x288x1, .f32⟩
  | 79 => ⟨S64x8x288x288, .f32⟩
  | 80 => ⟨S64x8x288x288, .f32⟩
  | 81 => ⟨S64x8x288x288, .f32⟩
  | 82 => ⟨S_, .f32⟩
  | 83 => ⟨S64x8x288, .f32⟩
  | 84 => ⟨S64x8x288x1, .f32⟩
  | 85 => ⟨S64x8x288x288, .f32⟩
  | 86 => ⟨S64x8x288x288, .f32⟩
  | 87 => ⟨S_, .i32⟩
  | 88 => ⟨S64, .i32⟩
  | 89 => ⟨S64, .i1⟩
  | 90 => ⟨S_, .i32⟩
  | 91 => ⟨S64, .i32⟩
  | 92 => ⟨S64, .i32⟩
  | 93 => ⟨S64, .i32⟩
  | 94 => ⟨S64x1, .i32⟩
  | 95 => ⟨S64x8x1x24x12, .f32⟩
  | 96 => ⟨S64x8x1x288, .f32⟩
  | 97 => ⟨S64x8x288x1, .f32⟩
  | 98 => ⟨S64x8x1x288, .f32⟩
  | 99 => ⟨S64x8x288x1, .f32⟩
  | 100 => ⟨S64x8x288x1, .f32⟩
  | 101 => ⟨S64x8x288x1, .f32⟩
  | 102 => ⟨S64x8x288, .f32⟩
  | 103 => ⟨S64x8x288, .f32⟩
  | 104 => ⟨S_, .f32⟩
  | 105 => ⟨S64x288, .f32⟩
  | 106 => ⟨S64x288, .f32⟩
  | 107 => ⟨S_, .f32⟩
  | 108 => ⟨S64, .f32⟩
  | 109 => ⟨S64x1, .f32⟩
  | 110 => ⟨S64x288, .f32⟩
  | 111 => ⟨S64x288, .f32⟩
  | 112 => ⟨S_, .f32⟩
  | 113 => ⟨S64, .f32⟩
  | 114 => ⟨S64x1, .f32⟩
  | 115 => ⟨S_, .f32⟩
  | 116 => ⟨S64x1, .f32⟩
  | 117 => ⟨S64x1, .f32⟩
  | 118 => ⟨S64x288, .f32⟩
  | 119 => ⟨S64x288, .f32⟩
  | 120 => ⟨S64x1x24x12, .f32⟩
  | 121 => ⟨S64x8x256x288, .f32⟩
  | 122 => ⟨S64x8x256x288, .f32⟩
  | 123 => ⟨S64x8x256x24x12, .f32⟩
  | 124 => ⟨S64x8x256x24x12, .f32⟩
  | 125 => ⟨S64x8x256x24x12, .f32⟩
  | 126 => ⟨S_, .f32⟩
  | 127 => ⟨S64x8x1x24x12, .f32⟩
  | _ => ⟨S32x2048x24x12, .f32⟩

abbrev hbmTy0_1 (i : Nat) : BufTy := match i % 128 with
  | 0 => ⟨S64x8x1x24x12, .f32⟩
  | 1 => ⟨S64x8x256x24x12, .f32⟩
  | 2 => ⟨S64x8x256x24x12, .f32⟩
  | 3 => ⟨S64x8x256x24x12, .f32⟩
  | 4 => ⟨S64x2048x24x12, .f32⟩
  | 5 => ⟨S64x8x256x288, .f32⟩
  | 6 => ⟨S64x8x288x256, .f32⟩
  | 7 => ⟨S64x8x256x288, .f32⟩
  | 8 => ⟨S64x8x288x256, .f32⟩
  | 9 => ⟨S64x8x288x256, .f32⟩
  | 10 => ⟨S_, .f32⟩
  | 11 => ⟨S64x8x288, .f32⟩
  | 12 => ⟨S64x8x288x1, .f32⟩
  | 13 => ⟨S64x8x288x1, .f32⟩
  | 14 => ⟨S_, .f32⟩
  | 15 => ⟨S64x8x288x1, .f32⟩
  | 16 => ⟨S64x8x288x1, .f32⟩
  | 17 => ⟨S64x8x288x256, .f32⟩
  | 18 => ⟨S64x8x288x256, .f32⟩
  | 19 => ⟨S64x8x288x256, .f32⟩
  | 20 => ⟨S_, .f32⟩
  | 21 => ⟨S64x8x288, .f32⟩
  | 22 => ⟨S64x8x288x1, .f32⟩
  | 23 => ⟨S64x8x288x1, .f32⟩
  | 24 => ⟨S_, .f32⟩
  | 25 => ⟨S64x8x288x1, .f32⟩
  | 26 => ⟨S64x8x288x1, .f32⟩
  | 27 => ⟨S64x8x288x256, .f32⟩
  | 28 => ⟨S64x8x288x256, .f32⟩
  | 29 => ⟨S64x8x288x288, .f32⟩
  | 30 => ⟨S_, .f32⟩
  | 31 => ⟨S64x8x288x288, .f32⟩
  | 32 => ⟨S64x8x288x288, .f32⟩
  | 33 => ⟨S_, .f32⟩
  | 34 => ⟨S64x8x288, .f32⟩
  | 35 => ⟨S_, .f32⟩
  | 36 => ⟨S64x8x288, .f32⟩
  | 37 => ⟨S64x8x288, .f32⟩
  | 38 => ⟨S64x8x288x1, .f32⟩
  | 39 => ⟨S64x8x288x288, .f32⟩
  | 40 => ⟨S64x8x288x288, .f32⟩
  | 41 => ⟨S64x8x288x288, .f32⟩
  | 42 => ⟨S_, .f32⟩
  | 43 => ⟨S64x8x288, .f32⟩
  | 44 => ⟨S64x8x288x1, .f32⟩
  | 45 => ⟨S64x8x288x288, .f32⟩
  | 46 => ⟨S64x8x288x288, .f32⟩
  | 47 => ⟨S64x8x256x288, .f32⟩
  | 48 => ⟨S64x8x256x288, .f32⟩
  | 49 => ⟨S64x8x256x24x12, .f32⟩
  | 50 => ⟨S64x8x256x24x12, .f32⟩
  | 51 => ⟨S64x8x256x24x12, .f32⟩
  | 52 => ⟨S_, .f32⟩
  | 53 => ⟨S64x8x1x24x12, .f32⟩
  | 54 => ⟨S64x8x1x24x12, .f32⟩
  | 55 => ⟨S64x8x256x24x12, .f32⟩
  | 56 => ⟨S64x8x256x24x12, .f32⟩
  | 57 => ⟨S64x8x256x24x12, .f32⟩
  | 58 => ⟨S64x2048x24x12, .f32⟩
  | 59 => ⟨S64x2048x24x12, .f32⟩
  | 60 => ⟨S_, .f32⟩
  | 61 => ⟨S64x2048x24x12, .f32⟩
  | 62 => ⟨S64x2048x24x12, .f32⟩
  | 63 => ⟨S64x2048x24x12, .f32⟩
  | 64 => ⟨S_, .f32⟩
  | 65 => ⟨S64x24x12, .f32⟩
  | 66 => ⟨S64x24x12, .f32⟩
  | 67 => ⟨S64x2048x24x12, .f32⟩
  | 68 => ⟨S_, .f32⟩
  | 69 => ⟨S64x2048x24x12, .f32⟩
  | 70 => ⟨S64x2048x24x12, .f32⟩
  | 71 => ⟨S64x2048x24x12, .f32⟩
  | 72 => ⟨S_, .f32⟩
  | 73 => ⟨S64x24x12, .f32⟩
  | 74 => ⟨S64x24x12, .f32⟩
  | 75 => ⟨S64x24x12, .f32⟩
  | 76 => ⟨S_, .f32⟩
  | 77 => ⟨S64x24x12, .f32⟩
  | 78 => ⟨S64x24x12, .f32⟩
  | 79 => ⟨S_, .f32⟩
  | 80 => ⟨S64x24x12, .f32⟩
  | 81 => ⟨S64x24x12, .f32⟩
  | 82 => ⟨S1x64x24x12, .f32⟩
  | 83 => ⟨S64x64x24x12, .f32⟩
  | 84 => ⟨S64x64x24x12, .f32⟩
  | 85 => ⟨S64x64x24x12, .f32⟩
  | 86 => ⟨S_, .f32⟩
  | 87 => ⟨S_, .f32⟩
  | 88 => ⟨S_, .f32⟩
  | 89 => ⟨S_, .f32⟩
  | _ => ⟨S32x2048x24x12, .f32⟩

abbrev hbmTy (i : Nat) : BufTy := match i / 128 with
  | 0 => hbmTy0_0 i
  | 1 => hbmTy0_1 i
  | _ => ⟨S32x2048x24x12, .f32⟩

abbrev bufTy : (tb : Table) → Fin (tcTables nBuf tb) → BufTy
  | .hbm, ⟨i, _⟩ => hbmTy i
  | _, _ => ⟨S32x2048x24x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_cst : Ref sig .tc := ⟨.hbm, 27, rfl⟩
abbrev main_call0_v1 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call1_v0 : Ref sig .tc := ⟨.hbm, 49, rfl⟩
abbrev main_call1_cst : Ref sig .tc := ⟨.hbm, 50, rfl⟩
abbrev main_call1_v1 : Ref sig .tc := ⟨.hbm, 51, rfl⟩
abbrev main_call1_v2 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_call2_v0 : Ref sig .tc := ⟨.hbm, 59, rfl⟩
abbrev main_call2_cst : Ref sig .tc := ⟨.hbm, 60, rfl⟩
abbrev main_call2_v1 : Ref sig .tc := ⟨.hbm, 61, rfl⟩
abbrev main_call2_v2 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_cst_8 : Ref sig .tc := ⟨.hbm, 73, rfl⟩
abbrev main_v48 : Ref sig .tc := ⟨.hbm, 74, rfl⟩
abbrev main_cst_9 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_10 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_11 : Ref sig .tc := ⟨.hbm, 87, rfl⟩
abbrev main_v59 : Ref sig .tc := ⟨.hbm, 88, rfl⟩
abbrev main_v60 : Ref sig .tc := ⟨.hbm, 89, rfl⟩
abbrev main_c_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_call3_v0 : Ref sig .tc := ⟨.hbm, 103, rfl⟩
abbrev main_call3_cst : Ref sig .tc := ⟨.hbm, 104, rfl⟩
abbrev main_call3_v1 : Ref sig .tc := ⟨.hbm, 105, rfl⟩
abbrev main_v73 : Ref sig .tc := ⟨.hbm, 106, rfl⟩
abbrev main_cst_13 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_14 : Ref sig .tc := ⟨.hbm, 112, rfl⟩
abbrev main_v78 : Ref sig .tc := ⟨.hbm, 113, rfl⟩
abbrev main_v79 : Ref sig .tc := ⟨.hbm, 114, rfl⟩
abbrev main_cst_15 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_16 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_call4_v0 : Ref sig .tc := ⟨.hbm, 137, rfl⟩
abbrev main_call4_cst : Ref sig .tc := ⟨.hbm, 138, rfl⟩
abbrev main_call4_v1 : Ref sig .tc := ⟨.hbm, 139, rfl⟩
abbrev main_call4_v2 : Ref sig .tc := ⟨.hbm, 140, rfl⟩
abbrev main_v100 : Ref sig .tc := ⟨.hbm, 141, rfl⟩
abbrev main_cst_17 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_call5_v0 : Ref sig .tc := ⟨.hbm, 147, rfl⟩
abbrev main_call5_cst : Ref sig .tc := ⟨.hbm, 148, rfl⟩
abbrev main_call5_v1 : Ref sig .tc := ⟨.hbm, 149, rfl⟩
abbrev main_call5_v2 : Ref sig .tc := ⟨.hbm, 150, rfl⟩
abbrev main_v105 : Ref sig .tc := ⟨.hbm, 151, rfl⟩
abbrev main_cst_18 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_cst_19 : Ref sig .tc := ⟨.hbm, 158, rfl⟩
abbrev main_v111 : Ref sig .tc := ⟨.hbm, 159, rfl⟩
abbrev main_v112 : Ref sig .tc := ⟨.hbm, 160, rfl⟩
abbrev main_cst_20 : Ref sig .tc := ⟨.hbm, 161, rfl⟩
abbrev main_v113 : Ref sig .tc := ⟨.hbm, 162, rfl⟩
abbrev main_cst_21 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_cst_22 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_cst_23 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_cst_24 : Ref sig .tc := ⟨.hbm, 188, rfl⟩
abbrev main_v136 : Ref sig .tc := ⟨.hbm, 189, rfl⟩
abbrev main_v137 : Ref sig .tc := ⟨.hbm, 190, rfl⟩
abbrev main_call6_v0 : Ref sig .tc := ⟨.hbm, 191, rfl⟩
abbrev main_call6_cst : Ref sig .tc := ⟨.hbm, 192, rfl⟩
abbrev main_call6_v1 : Ref sig .tc := ⟨.hbm, 193, rfl⟩
abbrev main_v138 : Ref sig .tc := ⟨.hbm, 194, rfl⟩
abbrev main_v139 : Ref sig .tc := ⟨.hbm, 195, rfl⟩
abbrev main_cst_25 : Ref sig .tc := ⟨.hbm, 196, rfl⟩
abbrev main_v140 : Ref sig .tc := ⟨.hbm, 197, rfl⟩
abbrev main_v141 : Ref sig .tc := ⟨.hbm, 198, rfl⟩
abbrev main_call7_v0 : Ref sig .tc := ⟨.hbm, 199, rfl⟩
abbrev main_call7_cst : Ref sig .tc := ⟨.hbm, 200, rfl⟩
abbrev main_call7_v1 : Ref sig .tc := ⟨.hbm, 201, rfl⟩
abbrev main_v142 : Ref sig .tc := ⟨.hbm, 202, rfl⟩
abbrev main_v143 : Ref sig .tc := ⟨.hbm, 203, rfl⟩
abbrev main_cst_26 : Ref sig .tc := ⟨.hbm, 204, rfl⟩
abbrev main_v144 : Ref sig .tc := ⟨.hbm, 205, rfl⟩
abbrev main_v145 : Ref sig .tc := ⟨.hbm, 206, rfl⟩
abbrev main_cst_27 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_cst_28 : Ref sig .tc := ⟨.hbm, 214, rfl⟩
abbrev main_v152 : Ref sig .tc := ⟨.hbm, 215, rfl⟩
abbrev main_cst_29 : Ref sig .tc := ⟨.hbm, 216, rfl⟩
abbrev main_v153 : Ref sig .tc := ⟨.hbm, 217, rfl⟩

abbrev nD : Nat := 1
abbrev τ : Topo := Topo.v7x

variable {F : FTy → Type} [FloatOps F]

class Facts₀ : Prop where
  concatenates_S32x2048x24x12_S32x2048x24x12_S64x2048x24x12_d0 : Shape.Concatenates [S32x2048x24x12, S32x2048x24x12] S64x2048x24x12 0
  shapeCasts_S64x2048x24x12_S64x8x256x24x12 : S64x2048x24x12.ShapeCasts S64x8x256x24x12
  bcast_S_S64 : S_.BroadcastsInDim S64 (![] : Fin 0 → Fin S64.rank)
  bcast_S64_S64x1_0 : S64.BroadcastsInDim S64x1 (![0] : Fin 1 → Fin S64x1.rank)
  reducesTo_S64x8x256x24x12_S64x8x24x12_d2 : S64x8x256x24x12.ReducesTo [2] S64x8x24x12
  h_S_ : 0 < S_.numel
  shapeCasts_S64x8x24x12_S64x8x288 : S64x8x24x12.ShapeCasts S64x8x288
  reducesTo_S64x8x288_S64x8_d2 : S64x8x288.ReducesTo [2] S64x8
  bcast_S64x8_S64x8x1_0_1 : S64x8.BroadcastsInDim S64x8x1 (![0, 1] : Fin 2 → Fin S64x8x1.rank)
  bcast_S64x8x1_S64x8x288_0_1_2 : S64x8x1.BroadcastsInDim S64x8x288 (![0, 1, 2] : Fin 3 → Fin S64x8x288.rank)
  bcast_S_S64x8x1 : S_.BroadcastsInDim S64x8x1 (![] : Fin 0 → Fin S64x8x1.rank)
  shapeCasts_S64x8x288_S64x8x1x24x12 : S64x8x288.ShapeCasts S64x8x1x24x12
  shapeCasts_S64x8x256x24x12_S64x8x256x288 : S64x8x256x24x12.ShapeCasts S64x8x256x288
  transposes_S64x8x256x288_S64x8x288x256_0_1_3_2 : S64x8x256x288.Transposes [0, 1, 3, 2] S64x8x288x256
  reducesTo_S64x8x288x256_S64x8x288_d3 : S64x8x288x256.ReducesTo [3] S64x8x288
  bcast_S64x8x288_S64x8x288x1_0_1_2 : S64x8x288.BroadcastsInDim S64x8x288x1 (![0, 1, 2] : Fin 3 → Fin S64x8x288x1.rank)
  bcast_S_S64x8x288x1 : S_.BroadcastsInDim S64x8x288x1 (![] : Fin 0 → Fin S64x8x288x1.rank)
  bcast_S64x8x288x1_S64x8x288x256_0_1_2_3 : S64x8x288x1.BroadcastsInDim S64x8x288x256 (![0, 1, 2, 3] : Fin 4 → Fin S64x8x288x256.rank)
  bcast_S_S64x8x288x288 : S_.BroadcastsInDim S64x8x288x288 (![] : Fin 0 → Fin S64x8x288x288.rank)
  reducesTo_S64x8x288x288_S64x8x288_d3 : S64x8x288x288.ReducesTo [3] S64x8x288
  bcast_S_S64x8x288 : S_.BroadcastsInDim S64x8x288 (![] : Fin 0 → Fin S64x8x288.rank)
  bcast_S64x8x288x1_S64x8x288x288_0_1_2_3 : S64x8x288x1.BroadcastsInDim S64x8x288x288 (![0, 1, 2, 3] : Fin 4 → Fin S64x8x288x288.rank)
  shapeCasts_S64x8x1x24x12_S64x8x1x288 : S64x8x1x24x12.ShapeCasts S64x8x1x288
  transposes_S64x8x1x288_S64x8x288x1_0_1_3_2 : S64x8x1x288.Transposes [0, 1, 3, 2] S64x8x288x1
  shapeCasts_S64x8x288x1_S64x8x288 : S64x8x288x1.ShapeCasts S64x8x288
  reducesTo_S64x8x288_S64x288_d1 : S64x8x288.ReducesTo [1] S64x288
  reducesTo_S64x288_S64_d1 : S64x288.ReducesTo [1] S64
  bcast_S64x1_S64x288_0_1 : S64x1.BroadcastsInDim S64x288 (![0, 1] : Fin 2 → Fin S64x288.rank)
  bcast_S_S64x1 : S_.BroadcastsInDim S64x1 (![] : Fin 0 → Fin S64x1.rank)
  shapeCasts_S64x288_S64x1x24x12 : S64x288.ShapeCasts S64x1x24x12
  shapeCasts_S64x8x256x288_S64x8x256x24x12 : S64x8x256x288.ShapeCasts S64x8x256x24x12
  bcast_S64x8x1x24x12_S64x8x256x24x12_0_1_2_3_4 : S64x8x1x24x12.BroadcastsInDim S64x8x256x24x12 (![0, 1, 2, 3, 4] : Fin 5 → Fin S64x8x256x24x12.rank)
  bcast_S_S64x8x1x24x12 : S_.BroadcastsInDim S64x8x1x24x12 (![] : Fin 0 → Fin S64x8x1x24x12.rank)
  shapeCasts_S64x8x256x24x12_S64x2048x24x12 : S64x8x256x24x12.ShapeCasts S64x2048x24x12
  bcast_S_S64x2048x24x12 : S_.BroadcastsInDim S64x2048x24x12 (![] : Fin 0 → Fin S64x2048x24x12.rank)
  reducesTo_S64x2048x24x12_S64x24x12_d1 : S64x2048x24x12.ReducesTo [1] S64x24x12
  bcast_S_S64x24x12 : S_.BroadcastsInDim S64x24x12 (![] : Fin 0 → Fin S64x24x12.rank)
  bcast_S64x24x12_S1x64x24x12_1_2_3 : S64x24x12.BroadcastsInDim S1x64x24x12 (![1, 2, 3] : Fin 3 → Fin S1x64x24x12.rank)
  bcast_S64x1x24x12_S64x64x24x12_0_1_2_3 : S64x1x24x12.BroadcastsInDim S64x64x24x12 (![0, 1, 2, 3] : Fin 4 → Fin S64x64x24x12.rank)
  bcast_S1x64x24x12_S64x64x24x12_0_1_2_3 : S1x64x24x12.BroadcastsInDim S64x64x24x12 (![0, 1, 2, 3] : Fin 4 → Fin S64x64x24x12.rank)
  reducesTo_S64x64x24x12_S_d0_1_2_3 : S64x64x24x12.ReducesTo [0, 1, 2, 3] S_
  gather_S64x2048x24x12_S64x1_S64x2048x24x12_123_0_n_n_0_1_120482412_wf : GatherDims.WF S64x2048x24x12 S64x1 S64x2048x24x12 [1, 2, 3] [0] [] [0] [] 1 ![1, 2048, 24, 12]
  dot_S64x8x288x256_S64x8x288x256_S64x8x288x288_3_3_2_2_01_01_wf : DotDims.WF S64x8x288x256 S64x8x288x256 S64x8x288x288 [3] [3] [2] [2] [0, 1] [0, 1]
  gather_S64x8x1x24x12_S64x1_S64x8x1x24x12_1234_0_n_n_0_1_1812412_wf : GatherDims.WF S64x8x1x24x12 S64x1 S64x8x1x24x12 [1, 2, 3, 4] [0] [] [0] [] 1 ![1, 8, 1, 24, 12]
  dot_S64x8x288x288_S64x8x288x1_S64x8x288x1_3_2_2_3_01_01_wf : DotDims.WF S64x8x288x288 S64x8x288x1 S64x8x288x1 [3] [2] [2] [3] [0, 1] [0, 1]
  dot_S64x8x256x288_S64x8x288x288_S64x8x256x288_3_3_2_2_01_01_wf : DotDims.WF S64x8x256x288 S64x8x288x288 S64x8x256x288 [3] [3] [2] [2] [0, 1] [0, 1]

variable [Facts₀]

def gather_S64x2048x24x12_S64x1_S64x2048x24x12_123_0_n_n_0_1_120482412 : GatherDims S64x2048x24x12 S64x1 S64x2048x24x12 where
  offsetDims := [1, 2, 3]
  collapsedSliceDims := [0]
  operandBatchingDims := []
  startIndicesBatchingDims := []
  startIndexMap := [0]
  indexVectorDim := 1
  sliceSizes := ![1, 2048, 24, 12]
  wf := gather_S64x2048x24x12_S64x1_S64x2048x24x12_123_0_n_n_0_1_120482412_wf
def dot_S64x8x288x256_S64x8x288x256_S64x8x288x288_3_3_2_2_01_01 : DotDims S64x8x288x256 S64x8x288x256 S64x8x288x288 where
  lhsContracting := [3]
  rhsContracting := [3]
  lhsNonContracting := [2]
  rhsNonContracting := [2]
  lhsBatch := [0, 1]
  rhsBatch := [0, 1]
  wf := dot_S64x8x288x256_S64x8x288x256_S64x8x288x288_3_3_2_2_01_01_wf
def gather_S64x8x1x24x12_S64x1_S64x8x1x24x12_1234_0_n_n_0_1_1812412 : GatherDims S64x8x1x24x12 S64x1 S64x8x1x24x12 where
  offsetDims := [1, 2, 3, 4]
  collapsedSliceDims := [0]
  operandBatchingDims := []
  startIndicesBatchingDims := []
  startIndexMap := [0]
  indexVectorDim := 1
  sliceSizes := ![1, 8, 1, 24, 12]
  wf := gather_S64x8x1x24x12_S64x1_S64x8x1x24x12_1234_0_n_n_0_1_1812412_wf
def dot_S64x8x288x288_S64x8x288x1_S64x8x288x1_3_2_2_3_01_01 : DotDims S64x8x288x288 S64x8x288x1 S64x8x288x1 where
  lhsContracting := [3]
  rhsContracting := [2]
  lhsNonContracting := [2]
  rhsNonContracting := [3]
  lhsBatch := [0, 1]
  rhsBatch := [0, 1]
  wf := dot_S64x8x288x288_S64x8x288x1_S64x8x288x1_3_2_2_3_01_01_wf
def dot_S64x8x256x288_S64x8x288x288_S64x8x256x288_3_3_2_2_01_01 : DotDims S64x8x256x288 S64x8x288x288 S64x8x256x288 where
  lhsContracting := [3]
  rhsContracting := [3]
  lhsNonContracting := [2]
  rhsNonContracting := [2]
  lhsBatch := [0, 1]
  rhsBatch := [0, 1]
  wf := dot_S64x8x256x288_S64x8x288x288_S64x8x256x288_3_3_2_2_01_01_wf

class Facts : Prop extends Facts₀ where

variable [Facts]
-- ==== Proof.RefRunDefs.lean ====
import proofs.«429718_j54400055771394_3_alg».proof.Proof.RefRead
import Idealize.ShloMosaic.Lib.StableHlo.Run
import Idealize.ShloMosaic.Lib.Pipeline.Frame

noncomputable section

namespace Cert.ReferenceIdeal.Hand.Run

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ binary main_arg0 main_arg1 main_v0 ((fun a b => concatenate S64x2048x24x12 0 [⟨S32x2048x24x12, a⟩, ⟨S32x2048x24x12, b⟩] concatenates_S32x2048x24x12_S32x2048x24x12_S64x2048x24x12_d0)),
    reshape main_v0 main_v1 rfl shapeCasts_S64x2048x24x12_S64x8x256x24x12,
    nullary main_c (constantI S_ 32 0#32),
    unary main_c main_v2 (broadcastInDim S64 ![] bcast_S_S64),
    binary main_arg2 main_v2 main_v3 (cmpi .slt),
    nullary main_c_0 (constantI S_ 32 64#32),
    unary main_c_0 main_v4 (broadcastInDim S64 ![] bcast_S_S64),
    binary main_arg2 main_v4 main_v5 (addi),
    ternary main_v3 main_v5 main_arg2 main_v6 (select),
    unary main_v6 main_v7 (broadcastInDim S64x1 ![0] bcast_S64_S64x1_0),
    binary main_v0 main_v7 main_v8 ((fun x i => Host.gather gather_S64x2048x24x12_S64x1_S64x2048x24x12_123_0_n_n_0_1_120482412 x i)),
    reshape main_v8 main_v9 rfl shapeCasts_S64x2048x24x12_S64x8x256x24x12,
    nullary main_c_1 (constantI S_ 32 0#32),
    unary main_c_1 main_v10 (broadcastInDim S64 ![] bcast_S_S64),
    binary main_arg3 main_v10 main_v11 (cmpi .slt),
    nullary main_c_2 (constantI S_ 32 64#32),
    unary main_c_2 main_v12 (broadcastInDim S64 ![] bcast_S_S64),
    binary main_arg3 main_v12 main_v13 (addi) ]
theorem ops0_sub : (ops0 : List (HloOp τ sig (Elt F))).Forall fun op => op.bufs ⊆ tcRefs τ sig :=
  ⟨binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., nullary_bufs_sub .., unary_bufs_sub .., binary_bufs_sub .., nullary_bufs_sub .., unary_bufs_sub .., binary_bufs_sub ..⟩

abbrev ops1 : List (HloOp τ sig (Elt F)) :=
  [ ternary main_v11 main_v13 main_arg3 main_v14 (select),
    unary main_v14 main_v15 (broadcastInDim S64x1 ![0] bcast_S64_S64x1_0),
    binary main_v0 main_v15 main_v16 ((fun x i => Host.gather gather_S64x2048x24x12_S64x1_S64x2048x24x12_123_0_n_n_0_1_120482412 x i)),
    reshape main_v16 main_v17 rfl shapeCasts_S64x2048x24x12_S64x8x256x24x12,
    TRef.binary (TRef.of (T := ⟨S64x8x256x24x12, .f32⟩) main_v1) (TRef.of (T := ⟨S64x8x256x24x12, .f32⟩) main_v1) (TRef.of (T := ⟨S64x8x256x24x12, .f32⟩) main_call0_v0) mulf,
    TRef.nullary (TRef.of (T := ⟨S_, .f32⟩) main_call0_cst) (constant S_ .f32 0x00000000#32),
    TRef.binary (TRef.of (T := ⟨S64x8x256x24x12, .f32⟩) main_call0_v0) (TRef.of (T := ⟨S_, .f32⟩) main_call0_cst) (TRef.of (T := ⟨S64x8x24x12, .f32⟩) main_call0_v1) (fun x v => Host.reduceAdd x v reducesTo_S64x8x256x24x12_S64x8x24x12_d2 h_S_),
    TRef.unary (TRef.of (T := ⟨S64x8x24x12, .f32⟩) main_call0_v1) (TRef.of (T := ⟨S64x8x24x12, .f32⟩) main_v18) Host.sqrt,
    reshape main_v18 main_v19 rfl shapeCasts_S64x8x24x12_S64x8x288,
    nullary main_cst (constant S_ .f32 0x7F800000#32),
    binary main_v19 main_cst main_v20 ((fun x v => Host.reduce FloatOps.minimumf x v reducesTo_S64x8x288_S64x8_d2 h_S_)),
    unary main_v20 main_v21 (broadcastInDim S64x8x1 ![0, 1] bcast_S64x8_S64x8x1_0_1),
    unary main_v21 main_v22 (broadcastInDim S64x8x288 ![0, 1, 2] bcast_S64x8x1_S64x8x288_0_1_2),
    binary main_v19 main_v22 main_v23 (subf),
    nullary main_cst_3 (constant S_ .f32 0xFF800000#32),
    binary main_v23 main_cst_3 main_v24 ((fun x v => Host.reduce FloatOps.maximumf x v reducesTo_S64x8x288_S64x8_d2 h_S_)),
    unary main_v24 main_v25 (broadcastInDim S64x8x1 ![0, 1] bcast_S64x8_S64x8x1_0_1),
    nullary main_cst_4 (constant S_ .f32 0x2B8CBCCC#32) ]
theorem ops1_sub : (ops1 : List (HloOp τ sig (Elt F))).Forall fun op => op.bufs ⊆ tcRefs τ sig :=
  ⟨ternary_bufs_sub .., unary_bufs_sub .., binary_bufs_sub .., reshape_bufs_sub .., binary_bufs_sub .., nullary_bufs_sub .., binary_bufs_sub .., unary_bufs_sub .., reshape_bufs_sub .., nullary_bufs_sub .., binary_bufs_sub .., unary_bufs_sub .., unary_bufs_sub .., binary_bufs_sub .., nullary_bufs_sub .., binary_bufs_sub .., unary_bufs_sub .., nullary_bufs_sub ..⟩

abbrev ops2 : List (HloOp τ sig (Elt F)) :=
  [ unary main_cst_4 main_v26 (broadcastInDim S64x8x1 ![] bcast_S_S64x8x1),
    binary main_v25 main_v26 main_v27 (addf),
    unary main_v27 main_v28 (broadcastInDim S64x8x288 ![0, 1, 2] bcast_S64x8x1_S64x8x288_0_1_2),
    binary main_v23 main_v28 main_v29 (Host.divf),
    reshape main_v29 main_v30 rfl shapeCasts_S64x8x288_S64x8x1x24x12,
    reshape main_v1 main_v31 rfl shapeCasts_S64x8x256x24x12_S64x8x256x288,
    unary main_v31 main_v32 ((transpose S64x8x288x256 [0, 1, 3, 2] · transposes_S64x8x256x288_S64x8x288x256_0_1_3_2) : (⟨S64x8x256x288, .f32⟩ : BufTy).Contents (Elt F) → (⟨S64x8x288x256, .f32⟩ : BufTy).Contents (Elt F)),
    reshape main_v9 main_v33 rfl shapeCasts_S64x8x256x24x12_S64x8x256x288,
    unary main_v33 main_v34 ((transpose S64x8x288x256 [0, 1, 3, 2] · transposes_S64x8x256x288_S64x8x288x256_0_1_3_2) : (⟨S64x8x256x288, .f32⟩ : BufTy).Contents (Elt F) → (⟨S64x8x288x256, .f32⟩ : BufTy).Contents (Elt F)),
    TRef.binary (TRef.of (T := ⟨S64x8x288x256, .f32⟩) main_v32) (TRef.of (T := ⟨S64x8x288x256, .f32⟩) main_v32) (TRef.of (T := ⟨S64x8x288x256, .f32⟩) main_call1_v0) mulf,
    TRef.nullary (TRef.of (T := ⟨S_, .f32⟩) main_call1_cst) (constant S_ .f32 0x00000000#32),
    TRef.binary (TRef.of (T := ⟨S64x8x288x256, .f32⟩) main_call1_v0) (TRef.of (T := ⟨S_, .f32⟩) main_call1_cst) (TRef.of (T := ⟨S64x8x288, .f32⟩) main_call1_v1) (fun x v => Host.reduceAdd x v reducesTo_S64x8x288x256_S64x8x288_d3 h_S_),
    TRef.unary (TRef.of (T := ⟨S64x8x288, .f32⟩) main_call1_v1) (TRef.of (T := ⟨S64x8x288x1, .f32⟩) main_call1_v2) (broadcastInDim S64x8x288x1 ![0, 1, 2] bcast_S64x8x288_S64x8x288x1_0_1_2),
    TRef.unary (TRef.of (T := ⟨S64x8x288x1, .f32⟩) main_call1_v2) (TRef.of (T := ⟨S64x8x288x1, .f32⟩) main_v35) Host.sqrt,
    nullary main_cst_5 (constant S_ .f32 0x2B8CBCCC#32),
    unary main_cst_5 main_v36 (broadcastInDim S64x8x288x1 ![] bcast_S_S64x8x288x1),
    binary main_v35 main_v36 main_v37 (maximumf) ]
theorem ops2_sub : (ops2 : List (HloOp τ sig (Elt F))).Forall fun op => op.bufs ⊆ tcRefs τ sig :=
  ⟨unary_bufs_sub .., binary_bufs_sub .., unary_bufs_sub .., binary_bufs_sub .., reshape_bufs_sub .., reshape_bufs_sub .., unary_bufs_sub .., reshape_bufs_sub .., unary_bufs_sub .., binary_bufs_sub .., nullary_bufs_sub .., binary_bufs_sub .., unary_bufs_sub .., unary_bufs_sub .., nullary_bufs_sub .., unary_bufs_sub .., binary_bufs_sub ..⟩

abbrev ops3 : List (HloOp τ sig (Elt F)) :=
  [ unary main_v37 main_v38 (broadcastInDim S64x8x288x256 ![0, 1, 2, 3] bcast_S64x8x288x1_S64x8x288x256_0_1_2_3),
    binary main_v32 main_v38 main_v39 (Host.divf),
    TRef.binary (TRef.of (T := ⟨S64x8x288x256, .f32⟩) main_v34) (TRef.of (T := ⟨S64x8x288x256, .f32⟩) main_v34) (TRef.of (T := ⟨S64x8x288x256, .f32⟩) main_call2_v0) mulf,
    TRef.nullary (TRef.of (T := ⟨S_, .f32⟩) main_call2_cst) (constant S_ .f32 0x00000000#32),
    TRef.binary (TRef.of (T := ⟨S64x8x288x256, .f32⟩) main_call2_v0) (TRef.of (T := ⟨S_, .f32⟩) main_call2_cst) (TRef.of (T := ⟨S64x8x288, .f32⟩) main_call2_v1) (fun x v => Host.reduceAdd x v reducesTo_S64x8x288x256_S64x8x288_d3 h_S_),
    TRef.unary (TRef.of (T := ⟨S64x8x288, .f32⟩) main_call2_v1) (TRef.of (T := ⟨S64x8x288x1, .f32⟩) main_call2_v2) (broadcastInDim S64x8x288x1 ![0, 1, 2] bcast_S64x8x288_S64x8x288x1_0_1_2),
    TRef.unary (TRef.of (T := ⟨S64x8x288x1, .f32⟩) main_call2_v2) (TRef.of (T := ⟨S64x8x288x1, .f32⟩) main_v40) Host.sqrt,
    nullary main_cst_6 (constant S_ .f32 0x2B8CBCCC#32),
    unary main_cst_6 main_v41 (broadcastInDim S64x8x288x1 ![] bcast_S_S64x8x288x1),
    binary main_v40 main_v41 main_v42 (maximumf),
    unary main_v42 main_v43 (broadcastInDim S64x8x288x256 ![0, 1, 2, 3] bcast_S64x8x288x1_S64x8x288x256_0_1_2_3),
    binary main_v34 main_v43 main_v44 (Host.divf),
    binary main_v39 main_v44 main_v45 ((fun l r => Host.dotGeneral dot_S64x8x288x256_S64x8x288x256_S64x8x288x288_3_3_2_2_01_01 none l r)),
    nullary main_cst_7 (constant S_ .f32 0x42480000#32),
    unary main_cst_7 main_v46 (broadcastInDim S64x8x288x288 ![] bcast_S_S64x8x288x288),
    binary main_v46 main_v45 main_v47 (mulf),
    nullary main_cst_8 (constant S_ .f32 0xFF800000#32),
    binary main_v47 main_cst_8 main_v48 ((fun x v => Host.reduce FloatOps.maximumf x v reducesTo_S64x8x288x288_S64x8x288_d3 h_S_)) ]
theorem ops3_sub : (ops3 : List (HloOp τ sig (Elt F))).Forall fun op => op.bufs ⊆ tcRefs τ sig :=
  ⟨unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., unary_bufs_sub .., binary_bufs_sub .., nullary_bufs_sub .., binary_bufs_sub ..⟩

abbrev ops4 : List (HloOp τ sig (Elt F)) :=
  [ nullary main_cst_9 (constant S_ .f32 0xFF800000#32),
    unary main_cst_9 main_v49 (broadcastInDim S64x8x288 ![] bcast_S_S64x8x288),
    binary main_v49 main_v48 main_v50 (maximumf),
    unary main_v50 main_v51 (broadcastInDim S64x8x288x1 ![0, 1, 2] bcast_S64x8x288_S64x8x288x1_0_1_2),
    unary main_v51 main_v52 (broadcastInDim S64x8x288x288 ![0, 1, 2, 3] bcast_S64x8x288x1_S64x8x288x288_0_1_2_3),
    binary main_v47 main_v52 main_v53 (subf),
    unary main_v53 main_v54 (Host.exp),
    nullary main_cst_10 (constant S_ .f32 0x00000000#32),
    binary main_v54 main_cst_10 main_v55 ((fun x v => Host.reduceAdd x v reducesTo_S64x8x288x288_S64x8x288_d3 h_S_)),
    unary main_v55 main_v56 (broadcastInDim S64x8x288x1 ![0, 1, 2] bcast_S64x8x288_S64x8x288x1_0_1_2),
    unary main_v56 main_v57 (broadcastInDim S64x8x288x288 ![0, 1, 2, 3] bcast_S64x8x288x1_S64x8x288x288_0_1_2_3),
    binary main_v54 main_v57 main_v58 (Host.divf),
    nullary main_c_11 (constantI S_ 32 0#32),
    unary main_c_11 main_v59 (broadcastInDim S64 ![] bcast_S_S64),
    binary main_arg2 main_v59 main_v60 (cmpi .slt),
    nullary main_c_12 (constantI S_ 32 64#32),
    unary main_c_12 main_v61 (broadcastInDim S64 ![] bcast_S_S64) ]
theorem ops4_sub : (ops4 : List (HloOp τ sig (Elt F))).Forall fun op => op.bufs ⊆ tcRefs τ sig :=
  ⟨nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., binary_bufs_sub .., nullary_bufs_sub .., unary_bufs_sub ..⟩

abbrev ops5 : List (HloOp τ sig (Elt F)) :=
  [ binary main_arg2 main_v61 main_v62 (addi),
    ternary main_v60 main_v62 main_arg2 main_v63 (select),
    unary main_v63 main_v64 (broadcastInDim S64x1 ![0] bcast_S64_S64x1_0),
    binary main_v30 main_v64 main_v65 ((fun x i => Host.gather gather_S64x8x1x24x12_S64x1_S64x8x1x24x12_1234_0_n_n_0_1_1812412 x i)),
    reshape main_v30 main_v66 rfl shapeCasts_S64x8x1x24x12_S64x8x1x288,
    unary main_v66 main_v67 ((transpose S64x8x288x1 [0, 1, 3, 2] · transposes_S64x8x1x288_S64x8x288x1_0_1_3_2) : (⟨S64x8x1x288, .f32⟩ : BufTy).Contents (Elt F) → (⟨S64x8x288x1, .f32⟩ : BufTy).Contents (Elt F)),
    reshape main_v65 main_v68 rfl shapeCasts_S64x8x1x24x12_S64x8x1x288,
    unary main_v68 main_v69 ((transpose S64x8x288x1 [0, 1, 3, 2] · transposes_S64x8x1x288_S64x8x288x1_0_1_3_2) : (⟨S64x8x1x288, .f32⟩ : BufTy).Contents (Elt F) → (⟨S64x8x288x1, .f32⟩ : BufTy).Contents (Elt F)),
    binary main_v58 main_v69 main_v70 ((fun l r => Host.dotGeneral dot_S64x8x288x288_S64x8x288x1_S64x8x288x1_3_2_2_3_01_01 none l r)),
    binary main_v67 main_v70 main_v71 (mulf),
    reshape main_v71 main_v72 rfl shapeCasts_S64x8x288x1_S64x8x288,
    TRef.binary (TRef.of (T := ⟨S64x8x288, .f32⟩) main_v72) (TRef.of (T := ⟨S64x8x288, .f32⟩) main_v72) (TRef.of (T := ⟨S64x8x288, .f32⟩) main_call3_v0) mulf,
    TRef.nullary (TRef.of (T := ⟨S_, .f32⟩) main_call3_cst) (constant S_ .f32 0x00000000#32),
    TRef.binary (TRef.of (T := ⟨S64x8x288, .f32⟩) main_call3_v0) (TRef.of (T := ⟨S_, .f32⟩) main_call3_cst) (TRef.of (T := ⟨S64x288, .f32⟩) main_call3_v1) (fun x v => Host.reduceAdd x v reducesTo_S64x8x288_S64x288_d1 h_S_),
    TRef.unary (TRef.of (T := ⟨S64x288, .f32⟩) main_call3_v1) (TRef.of (T := ⟨S64x288, .f32⟩) main_v73) Host.sqrt,
    nullary main_cst_13 (constant S_ .f32 0x7F800000#32),
    binary main_v73 main_cst_13 main_v74 ((fun x v => Host.reduce FloatOps.minimumf x v reducesTo_S64x288_S64_d1 h_S_)) ]
theorem ops5_sub : (ops5 : List (HloOp τ sig (Elt F))).Forall fun op => op.bufs ⊆ tcRefs τ sig :=
  ⟨binary_bufs_sub .., ternary_bufs_sub .., unary_bufs_sub .., binary_bufs_sub .., reshape_bufs_sub .., unary_bufs_sub .., reshape_bufs_sub .., unary_bufs_sub .., binary_bufs_sub .., binary_bufs_sub .., reshape_bufs_sub .., binary_bufs_sub .., nullary_bufs_sub .., binary_bufs_sub .., unary_bufs_sub .., nullary_bufs_sub .., binary_bufs_sub ..⟩

abbrev ops6 : List (HloOp τ sig (Elt F)) :=
  [ unary main_v74 main_v75 (broadcastInDim S64x1 ![0] bcast_S64_S64x1_0),
    unary main_v75 main_v76 (broadcastInDim S64x288 ![0, 1] bcast_S64x1_S64x288_0_1),
    binary main_v73 main_v76 main_v77 (subf),
    nullary main_cst_14 (constant S_ .f32 0xFF800000#32),
    binary main_v77 main_cst_14 main_v78 ((fun x v => Host.reduce FloatOps.maximumf x v reducesTo_S64x288_S64_d1 h_S_)),
    unary main_v78 main_v79 (broadcastInDim S64x1 ![0] bcast_S64_S64x1_0),
    nullary main_cst_15 (constant S_ .f32 0x2B8CBCCC#32),
    unary main_cst_15 main_v80 (broadcastInDim S64x1 ![] bcast_S_S64x1),
    binary main_v79 main_v80 main_v81 (addf),
    unary main_v81 main_v82 (broadcastInDim S64x288 ![0, 1] bcast_S64x1_S64x288_0_1),
    binary main_v77 main_v82 main_v83 (Host.divf),
    reshape main_v83 main_v84 rfl shapeCasts_S64x288_S64x1x24x12,
    reshape main_v9 main_v85 rfl shapeCasts_S64x8x256x24x12_S64x8x256x288,
    binary main_v85 main_v58 main_v86 ((fun l r => Host.dotGeneral dot_S64x8x256x288_S64x8x288x288_S64x8x256x288_3_3_2_2_01_01 none l r)),
    reshape main_v86 main_v87 rfl shapeCasts_S64x8x256x288_S64x8x256x24x12,
    unary main_v30 main_v88 (broadcastInDim S64x8x256x24x12 ![0, 1, 2, 3, 4] bcast_S64x8x1x24x12_S64x8x256x24x12_0_1_2_3_4) ]
theorem ops6_sub : (ops6 : List (HloOp τ sig (Elt F))).Forall fun op => op.bufs ⊆ tcRefs τ sig :=
  ⟨unary_bufs_sub .., unary_bufs_sub .., binary_bufs_sub .., nullary_bufs_sub .., binary_bufs_sub .., unary_bufs_sub .., nullary_bufs_sub .., unary_bufs_sub .., binary_bufs_sub .., unary_bufs_sub .., binary_bufs_sub .., reshape_bufs_sub .., reshape_bufs_sub .., binary_bufs_sub .., reshape_bufs_sub .., unary_bufs_sub ..⟩

abbrev ops7 : List (HloOp τ sig (Elt F)) :=
  [ binary main_v88 main_v87 main_v89 (mulf),
    nullary main_cst_16 (constant S_ .f32 0x3F800000#32),
    unary main_cst_16 main_v90 (broadcastInDim S64x8x1x24x12 ![] bcast_S_S64x8x1x24x12),
    binary main_v90 main_v30 main_v91 (subf),
    unary main_v91 main_v92 (broadcastInDim S64x8x256x24x12 ![0, 1, 2, 3, 4] bcast_S64x8x1x24x12_S64x8x256x24x12_0_1_2_3_4),
    binary main_v92 main_v1 main_v93 (mulf),
    binary main_v89 main_v93 main_v94 (addf),
    reshape main_v94 main_v95 rfl shapeCasts_S64x8x256x24x12_S64x2048x24x12,
    reshape main_v1 main_v96 rfl shapeCasts_S64x8x256x24x12_S64x8x256x288,
    unary main_v96 main_v97 ((transpose S64x8x288x256 [0, 1, 3, 2] · transposes_S64x8x256x288_S64x8x288x256_0_1_3_2) : (⟨S64x8x256x288, .f32⟩ : BufTy).Contents (Elt F) → (⟨S64x8x288x256, .f32⟩ : BufTy).Contents (Elt F)),
    reshape main_v17 main_v98 rfl shapeCasts_S64x8x256x24x12_S64x8x256x288,
    unary main_v98 main_v99 ((transpose S64x8x288x256 [0, 1, 3, 2] · transposes_S64x8x256x288_S64x8x288x256_0_1_3_2) : (⟨S64x8x256x288, .f32⟩ : BufTy).Contents (Elt F) → (⟨S64x8x288x256, .f32⟩ : BufTy).Contents (Elt F)),
    TRef.binary (TRef.of (T := ⟨S64x8x288x256, .f32⟩) main_v97) (TRef.of (T := ⟨S64x8x288x256, .f32⟩) main_v97) (TRef.of (T := ⟨S64x8x288x256, .f32⟩) main_call4_v0) mulf,
    TRef.nullary (TRef.of (T := ⟨S_, .f32⟩) main_call4_cst) (constant S_ .f32 0x00000000#32),
    TRef.binary (TRef.of (T := ⟨S64x8x288x256, .f32⟩) main_call4_v0) (TRef.of (T := ⟨S_, .f32⟩) main_call4_cst) (TRef.of (T := ⟨S64x8x288, .f32⟩) main_call4_v1) (fun x v => Host.reduceAdd x v reducesTo_S64x8x288x256_S64x8x288_d3 h_S_),
    TRef.unary (TRef.of (T := ⟨S64x8x288, .f32⟩) main_call4_v1) (TRef.of (T := ⟨S64x8x288x1, .f32⟩) main_call4_v2) (broadcastInDim S64x8x288x1 ![0, 1, 2] bcast_S64x8x288_S64x8x288x1_0_1_2),
    TRef.unary (TRef.of (T := ⟨S64x8x288x1, .f32⟩) main_call4_v2) (TRef.of (T := ⟨S64x8x288x1, .f32⟩) main_v100) Host.sqrt ]
theorem ops7_sub : (ops7 : List (HloOp τ sig (Elt F))).Forall fun op => op.bufs ⊆ tcRefs τ sig :=
  ⟨binary_bufs_sub .., nullary_bufs_sub .., unary_bufs_sub .., binary_bufs_sub .., unary_bufs_sub .., binary_bufs_sub .., binary_bufs_sub .., reshape_bufs_sub .., reshape_bufs_sub .., unary_bufs_sub .., reshape_bufs_sub .., unary_bufs_sub .., binary_bufs_sub .., nullary_bufs_sub .., binary_bufs_sub .., unary_bufs_sub .., unary_bufs_sub ..⟩

abbrev ops8 : List (HloOp τ sig (Elt F)) :=
  [ nullary main_cst_17 (constant S_ .f32 0x2B8CBCCC#32),
    unary main_cst_17 main_v101 (broadcastInDim S64x8x288x1 ![] bcast_S_S64x8x288x1),
    binary main_v100 main_v101 main_v102 (maximumf),
    unary main_v102 main_v103 (broadcastInDim S64x8x288x256 ![0, 1, 2, 3] bcast_S64x8x288x1_S64x8x288x256_0_1_2_3),
    binary main_v97 main_v103 main_v104 (Host.divf),
    TRef.binary (TRef.of (T := ⟨S64x8x288x256, .f32⟩) main_v99) (TRef.of (T := ⟨S64x8x288x256, .f32⟩) main_v99) (TRef.of (T := ⟨S64x8x288x256, .f32⟩) main_call5_v0) mulf,
    TRef.nullary (TRef.of (T := ⟨S_, .f32⟩) main_call5_cst) (constant S_ .f32 0x00000000#32),
    TRef.binary (TRef.of (T := ⟨S64x8x288x256, .f32⟩) main_call5_v0) (TRef.of (T := ⟨S_, .f32⟩) main_call5_cst) (TRef.of (T := ⟨S64x8x288, .f32⟩) main_call5_v1) (fun x v => Host.reduceAdd x v reducesTo_S64x8x288x256_S64x8x288_d3 h_S_),
    TRef.unary (TRef.of (T := ⟨S64x8x288, .f32⟩) main_call5_v1) (TRef.of (T := ⟨S64x8x288x1, .f32⟩) main_call5_v2) (broadcastInDim S64x8x288x1 ![0, 1, 2] bcast_S64x8x288_S64x8x288x1_0_1_2),
    TRef.unary (TRef.of (T := ⟨S64x8x288x1, .f32⟩) main_call5_v2) (TRef.of (T := ⟨S64x8x288x1, .f32⟩) main_v105) Host.sqrt,
    nullary main_cst_18 (constant S_ .f32 0x2B8CBCCC#32),
    unary main_cst_18 main_v106 (broadcastInDim S64x8x288x1 ![] bcast_S_S64x8x288x1),
    binary main_v105 main_v106 main_v107 (maximumf),
    unary main_v107 main_v108 (broadcastInDim S64x8x288x256 ![0, 1, 2, 3] bcast_S64x8x288x1_S64x8x288x256_0_1_2_3),
    binary main_v99 main_v108 main_v109 (Host.divf),
    binary main_v104 main_v109 main_v110 ((fun l r => Host.dotGeneral dot_S64x8x288x256_S64x8x288x256_S64x8x288x288_3_3_2_2_01_01 none l r)),
    nullary main_cst_19 (constant S_ .f32 0x42480000#32),
    unary main_cst_19 main_v111 (broadcastInDim S64x8x288x288 ![] bcast_S_S64x8x288x288) ]
theorem ops8_sub : (ops8 : List (HloOp τ sig (Elt F))).Forall fun op => op.bufs ⊆ tcRefs τ sig :=
  ⟨nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., unary_bufs_sub ..⟩

abbrev ops9 : List (HloOp τ sig (Elt F)) :=
  [ binary main_v111 main_v110 main_v112 (mulf),
    nullary main_cst_20 (constant S_ .f32 0xFF800000#32),
    binary main_v112 main_cst_20 main_v113 ((fun x v => Host.reduce FloatOps.maximumf x v reducesTo_S64x8x288x288_S64x8x288_d3 h_S_)),
    nullary main_cst_21 (constant S_ .f32 0xFF800000#32),
    unary main_cst_21 main_v114 (broadcastInDim S64x8x288 ![] bcast_S_S64x8x288),
    binary main_v114 main_v113 main_v115 (maximumf),
    unary main_v115 main_v116 (broadcastInDim S64x8x288x1 ![0, 1, 2] bcast_S64x8x288_S64x8x288x1_0_1_2),
    unary main_v116 main_v117 (broadcastInDim S64x8x288x288 ![0, 1, 2, 3] bcast_S64x8x288x1_S64x8x288x288_0_1_2_3),
    binary main_v112 main_v117 main_v118 (subf),
    unary main_v118 main_v119 (Host.exp),
    nullary main_cst_22 (constant S_ .f32 0x00000000#32),
    binary main_v119 main_cst_22 main_v120 ((fun x v => Host.reduceAdd x v reducesTo_S64x8x288x288_S64x8x288_d3 h_S_)),
    unary main_v120 main_v121 (broadcastInDim S64x8x288x1 ![0, 1, 2] bcast_S64x8x288_S64x8x288x1_0_1_2),
    unary main_v121 main_v122 (broadcastInDim S64x8x288x288 ![0, 1, 2, 3] bcast_S64x8x288x1_S64x8x288x288_0_1_2_3),
    binary main_v119 main_v122 main_v123 (Host.divf),
    reshape main_v17 main_v124 rfl shapeCasts_S64x8x256x24x12_S64x8x256x288,
    binary main_v124 main_v123 main_v125 ((fun l r => Host.dotGeneral dot_S64x8x256x288_S64x8x288x288_S64x8x256x288_3_3_2_2_01_01 none l r)) ]
theorem ops9_sub : (ops9 : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., reshape_bufs_sub .., binary_bufs_sub ..⟩

abbrev ops10 : List (HloOp τ sig (Elt F)) :=
  [ reshape main_v125 main_v126 rfl shapeCasts_S64x8x256x288_S64x8x256x24x12,
    unary main_v30 main_v127 (broadcastInDim S64x8x256x24x12 ![0, 1, 2, 3, 4] bcast_S64x8x1x24x12_S64x8x256x24x12_0_1_2_3_4),
    binary main_v127 main_v126 main_v128 (mulf),
    nullary main_cst_23 (constant S_ .f32 0x3F800000#32),
    unary main_cst_23 main_v129 (broadcastInDim S64x8x1x24x12 ![] bcast_S_S64x8x1x24x12),
    binary main_v129 main_v30 main_v130 (subf),
    unary main_v130 main_v131 (broadcastInDim S64x8x256x24x12 ![0, 1, 2, 3, 4] bcast_S64x8x1x24x12_S64x8x256x24x12_0_1_2_3_4),
    binary main_v131 main_v1 main_v132 (mulf),
    binary main_v128 main_v132 main_v133 (addf),
    reshape main_v133 main_v134 rfl shapeCasts_S64x8x256x24x12_S64x2048x24x12,
    binary main_v0 main_v95 main_v135 (subf),
    nullary main_cst_24 (constant S_ .f32 0x358637BD#32),
    unary main_cst_24 main_v136 (broadcastInDim S64x2048x24x12 ![] bcast_S_S64x2048x24x12),
    binary main_v135 main_v136 main_v137 (addf),
    TRef.binary (TRef.of (T := ⟨S64x2048x24x12, .f32⟩) main_v137) (TRef.of (T := ⟨S64x2048x24x12, .f32⟩) main_v137) (TRef.of (T := ⟨S64x2048x24x12, .f32⟩) main_call6_v0) mulf,
    TRef.nullary (TRef.of (T := ⟨S_, .f32⟩) main_call6_cst) (constant S_ .f32 0x00000000#32),
    TRef.binary (TRef.of (T := ⟨S64x2048x24x12, .f32⟩) main_call6_v0) (TRef.of (T := ⟨S_, .f32⟩) main_call6_cst) (TRef.of (T := ⟨S64x24x12, .f32⟩) main_call6_v1) (fun x v => Host.reduceAdd x v reducesTo_S64x2048x24x12_S64x24x12_d1 h_S_),
    TRef.unary (TRef.of (T := ⟨S64x24x12, .f32⟩) main_call6_v1) (TRef.of (T := ⟨S64x24x12, .f32⟩) main_v138) Host.sqrt ]
theorem ops10_sub : (ops10 : List (HloOp τ sig (Elt F))).Forall fun op => op.bufs ⊆ tcRefs τ sig :=
  ⟨reshape_bufs_sub .., unary_bufs_sub .., binary_bufs_sub .., nullary_bufs_sub .., unary_bufs_sub .., binary_bufs_sub .., unary_bufs_sub .., binary_bufs_sub .., binary_bufs_sub .., reshape_bufs_sub .., binary_bufs_sub .., nullary_bufs_sub .., unary_bufs_sub .., binary_bufs_sub .., binary_bufs_sub .., nullary_bufs_sub .., binary_bufs_sub .., unary_bufs_sub ..⟩

abbrev ops11 : List (HloOp τ sig (Elt F)) :=
  [ binary main_v0 main_v134 main_v139 (subf),
    nullary main_cst_25 (constant S_ .f32 0x358637BD#32),
    unary main_cst_25 main_v140 (broadcastInDim S64x2048x24x12 ![] bcast_S_S64x2048x24x12),
    binary main_v139 main_v140 main_v141 (addf),
    TRef.binary (TRef.of (T := ⟨S64x2048x24x12, .f32⟩) main_v141) (TRef.of (T := ⟨S64x2048x24x12, .f32⟩) main_v141) (TRef.of (T := ⟨S64x2048x24x12, .f32⟩) main_call7_v0) mulf,
    TRef.nullary (TRef.of (T := ⟨S_, .f32⟩) main_call7_cst) (constant S_ .f32 0x00000000#32),
    TRef.binary (TRef.of (T := ⟨S64x2048x24x12, .f32⟩) main_call7_v0) (TRef.of (T := ⟨S_, .f32⟩) main_call7_cst) (TRef.of (T := ⟨S64x24x12, .f32⟩) main_call7_v1) (fun x v => Host.reduceAdd x v reducesTo_S64x2048x24x12_S64x24x12_d1 h_S_),
    TRef.unary (TRef.of (T := ⟨S64x24x12, .f32⟩) main_call7_v1) (TRef.of (T := ⟨S64x24x12, .f32⟩) main_v142) Host.sqrt,
    binary main_v138 main_v142 main_v143 (subf),
    nullary main_cst_26 (constant S_ .f32 0x3E99999A#32),
    unary main_cst_26 main_v144 (broadcastInDim S64x24x12 ![] bcast_S_S64x24x12),
    binary main_v143 main_v144 main_v145 (addf),
    nullary main_cst_27 (constant S_ .f32 0x00000000#32),
    unary main_cst_27 main_v146 (broadcastInDim S64x24x12 ![] bcast_S_S64x24x12),
    binary main_v145 main_v146 main_v147 (maximumf),
    unary main_v147 main_v148 (broadcastInDim S1x64x24x12 ![1, 2, 3] bcast_S64x24x12_S1x64x24x12_1_2_3),
    unary main_v84 main_v149 (broadcastInDim S64x64x24x12 ![0, 1, 2, 3] bcast_S64x1x24x12_S64x64x24x12_0_1_2_3) ]
theorem ops11_sub : (ops11 : List (HloOp τ sig (Elt F))).Forall fun op => op.bufs ⊆ tcRefs τ sig :=
  ⟨binary_bufs_sub .., nullary_bufs_sub .., unary_bufs_sub .., binary_bufs_sub .., binary_bufs_sub .., nullary_bufs_sub .., binary_bufs_sub .., unary_bufs_sub .., binary_bufs_sub .., nullary_bufs_sub .., unary_bufs_sub .., binary_bufs_sub .., nullary_bufs_sub .., unary_bufs_sub .., binary_bufs_sub .., unary_bufs_sub .., unary_bufs_sub ..⟩

abbrev ops12 : List (HloOp τ sig (Elt F)) :=
  [ unary main_v148 main_v150 (broadcastInDim S64x64x24x12 ![0, 1, 2, 3] bcast_S1x64x24x12_S64x64x24x12_0_1_2_3),
    binary main_v149 main_v150 main_v151 (mulf),
    nullary main_cst_28 (constant S_ .f32 0x00000000#32),
    binary main_v151 main_cst_28 main_v152 ((fun x v => Host.reduceAdd x v reducesTo_S64x64x24x12_S_d0_1_2_3 h_S_)),
    nullary main_cst_29 (constant S_ .f32 0x49900000#32),
    binary main_v152 main_cst_29 main_v153 (Host.divf) ]
theorem ops12_sub : (ops12 : List (HloOp τ sig (Elt F))).Forall fun op => op.bufs ⊆ tcRefs τ sig :=
  ⟨unary_bufs_sub .., binary_bufs_sub .., nullary_bufs_sub .., binary_bufs_sub .., nullary_bufs_sub .., binary_bufs_sub ..⟩

variable (W : Valuation τ sig (Elt F)) (x0 x1 : (⟨S32x2048x24x12, .f32⟩ : BufTy).Contents (Elt F)) (x2 x3 : (⟨S64, .i32⟩ : BufTy).Contents (Elt F))

def Cut0 : Prop :=
  W (Proc.devRef .tc main_arg0) = x0
  ∧ W (Proc.devRef .tc main_arg1) = x1
  ∧ W (Proc.devRef .tc main_arg2) = x2
  ∧ W (Proc.devRef .tc main_arg3) = x3

def Cut1 : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_v0) = Read.val_main_v0 x0 x1
  ∧ W (Proc.devRef .tc main_v1) = Read.val_main_v1 x0 x1
  ∧ W (Proc.devRef .tc main_v9) = Read.val_main_v9 x0 x1 x2
  ∧ W (Proc.devRef .tc main_v11) = Read.val_main_v11 x3
  ∧ W (Proc.devRef .tc main_v13) = Read.val_main_v13 x3

def Cut2 : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_v0) = Read.val_main_v0 x0 x1
  ∧ W (Proc.devRef .tc main_v1) = Read.val_main_v1 x0 x1
  ∧ W (Proc.devRef .tc main_v9) = Read.val_main_v9 x0 x1 x2
  ∧ W (Proc.devRef .tc main_v17) = Read.val_main_v17 x0 x1 x3
  ∧ W (Proc.devRef .tc main_v23) = Read.val_main_v23 x0 x1
  ∧ W (Proc.devRef .tc main_v25) = Read.val_main_v25 x0 x1
  ∧ W (Proc.devRef .tc main_cst_4) = Read.val_main_cst_4 (F := F)

def Cut3 : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_v0) = Read.val_main_v0 x0 x1
  ∧ W (Proc.devRef .tc main_v1) = Read.val_main_v1 x0 x1
  ∧ W (Proc.devRef .tc main_v9) = Read.val_main_v9 x0 x1 x2
  ∧ W (Proc.devRef .tc main_v17) = Read.val_main_v17 x0 x1 x3
  ∧ W (Proc.devRef .tc main_v30) = Read.val_main_v30 x0 x1
  ∧ W (Proc.devRef .tc main_v32) = Read.val_main_v32 x0 x1
  ∧ W (Proc.devRef .tc main_v34) = Read.val_main_v34 x0 x1 x2
  ∧ W (Proc.devRef .tc main_v37) = Read.val_main_v37 x0 x1

def Cut4 : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_v0) = Read.val_main_v0 x0 x1
  ∧ W (Proc.devRef .tc main_v1) = Read.val_main_v1 x0 x1
  ∧ W (Proc.devRef .tc main_v9) = Read.val_main_v9 x0 x1 x2
  ∧ W (Proc.devRef .tc main_v17) = Read.val_main_v17 x0 x1 x3
  ∧ W (Proc.devRef .tc main_v30) = Read.val_main_v30 x0 x1
  ∧ W (Proc.devRef .tc main_v47) = Read.val_main_v47 x0 x1 x2
  ∧ W (Proc.devRef .tc main_v48) = Read.val_main_v48 x0 x1 x2

def Cut5 : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_v0) = Read.val_main_v0 x0 x1
  ∧ W (Proc.devRef .tc main_v1) = Read.val_main_v1 x0 x1
  ∧ W (Proc.devRef .tc main_v9) = Read.val_main_v9 x0 x1 x2
  ∧ W (Proc.devRef .tc main_v17) = Read.val_main_v17 x0 x1 x3
  ∧ W (Proc.devRef .tc main_v30) = Read.val_main_v30 x0 x1
  ∧ W (Proc.devRef .tc main_v58) = Read.val_main_v58 x0 x1 x2
  ∧ W (Proc.devRef .tc main_v60) = Read.val_main_v60 x2
  ∧ W (Proc.devRef .tc main_v61) = Read.val_main_v61 (F := F)

def Cut6 : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_v0) = Read.val_main_v0 x0 x1
  ∧ W (Proc.devRef .tc main_v1) = Read.val_main_v1 x0 x1
  ∧ W (Proc.devRef .tc main_v9) = Read.val_main_v9 x0 x1 x2
  ∧ W (Proc.devRef .tc main_v17) = Read.val_main_v17 x0 x1 x3
  ∧ W (Proc.devRef .tc main_v30) = Read.val_main_v30 x0 x1
  ∧ W (Proc.devRef .tc main_v58) = Read.val_main_v58 x0 x1 x2
  ∧ W (Proc.devRef .tc main_v73) = Read.val_main_v73 x0 x1 x2
  ∧ W (Proc.devRef .tc main_v74) = Read.val_main_v74 x0 x1 x2

def Cut7 : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_v0) = Read.val_main_v0 x0 x1
  ∧ W (Proc.devRef .tc main_v1) = Read.val_main_v1 x0 x1
  ∧ W (Proc.devRef .tc main_v17) = Read.val_main_v17 x0 x1 x3
  ∧ W (Proc.devRef .tc main_v30) = Read.val_main_v30 x0 x1
  ∧ W (Proc.devRef .tc main_v84) = Read.val_main_v84 x0 x1 x2
  ∧ W (Proc.devRef .tc main_v87) = Read.val_main_v87 x0 x1 x2
  ∧ W (Proc.devRef .tc main_v88) = Read.val_main_v88 x0 x1

def Cut8 : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_v0) = Read.val_main_v0 x0 x1
  ∧ W (Proc.devRef .tc main_v1) = Read.val_main_v1 x0 x1
  ∧ W (Proc.devRef .tc main_v17) = Read.val_main_v17 x0 x1 x3
  ∧ W (Proc.devRef .tc main_v30) = Read.val_main_v30 x0 x1
  ∧ W (Proc.devRef .tc main_v84) = Read.val_main_v84 x0 x1 x2
  ∧ W (Proc.devRef .tc main_v95) = Read.val_main_v95 x0 x1 x2
  ∧ W (Proc.devRef .tc main_v97) = Read.val_main_v97 x0 x1
  ∧ W (Proc.devRef .tc main_v99) = Read.val_main_v99 x0 x1 x3
  ∧ W (Proc.devRef .tc main_v100) = Read.val_main_v100 x0 x1

def Cut9 : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_v0) = Read.val_main_v0 x0 x1
  ∧ W (Proc.devRef .tc main_v1) = Read.val_main_v1 x0 x1
  ∧ W (Proc.devRef .tc main_v17) = Read.val_main_v17 x0 x1 x3
  ∧ W (Proc.devRef .tc main_v30) = Read.val_main_v30 x0 x1
  ∧ W (Proc.devRef .tc main_v84) = Read.val_main_v84 x0 x1 x2
  ∧ W (Proc.devRef .tc main_v95) = Read.val_main_v95 x0 x1 x2
  ∧ W (Proc.devRef .tc main_v110) = Read.val_main_v110 x0 x1 x3
  ∧ W (Proc.devRef .tc main_v111) = Read.val_main_v111 (F := F)

def Cut10 : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_v0) = Read.val_main_v0 x0 x1
  ∧ W (Proc.devRef .tc main_v1) = Read.val_main_v1 x0 x1
  ∧ W (Proc.devRef .tc main_v30) = Read.val_main_v30 x0 x1
  ∧ W (Proc.devRef .tc main_v84) = Read.val_main_v84 x0 x1 x2
  ∧ W (Proc.devRef .tc main_v95) = Read.val_main_v95 x0 x1 x2
  ∧ W (Proc.devRef .tc main_v125) = Read.val_main_v125 x0 x1 x3

def Cut11 : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_v0) = Read.val_main_v0 x0 x1
  ∧ W (Proc.devRef .tc main_v84) = Read.val_main_v84 x0 x1 x2
  ∧ W (Proc.devRef .tc main_v95) = Read.val_main_v95 x0 x1 x2
  ∧ W (Proc.devRef .tc main_v134) = Read.val_main_v134 x0 x1 x3
  ∧ W (Proc.devRef .tc main_v138) = Read.val_main_v138 x0 x1 x2

def Cut12 : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_v95) = Read.val_main_v95 x0 x1 x2
  ∧ W (Proc.devRef .tc main_v148) = Read.val_main_v148 x0 x1 x2 x3
  ∧ W (Proc.devRef .tc main_v149) = Read.val_main_v149 x0 x1 x2

def Cut13 : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_v95) = Read.val_main_v95 x0 x1 x2
  ∧ W (Proc.devRef .tc main_v153) = Read.val_main_v153 x0 x1 x2 x3

end Cert.ReferenceIdeal.Hand.Run

end
-- ==== Proof.RefRunS0.lean ====
import proofs.«429718_j54400055771394_3_alg».proof.Proof.RefRunDefs

namespace Cert.ReferenceIdeal.Hand.Run

open Idealize.ShloMosaic StableHlo

variable {F : FTy → Type} [FloatOps F]

/-- Operations 1 … 18: each fact after them is an operation's value at the facts before them, its stage by definition. -/
theorem stretch0 {W x0 x1 x2 x3} (h : Cut0 (F := F) W x0 x1 x2 x3) : Cut1 (after ops0 W) x0 x1 x2 x3 := by
  obtain ⟨rfl, rfl, rfl, rfl⟩ := h
  refine ⟨?_, ?_, ?_, ?_, ?_, ?_, ?_, ?_, ?_⟩ <;> after_results_simp <;> rfl

end Cert.ReferenceIdeal.Hand.Run
-- ==== Proof.RefRunS1.lean ====
import proofs.«429718_j54400055771394_3_alg».proof.Proof.RefRunDefs

namespace Cert.ReferenceIdeal.Hand.Run

open Idealize.ShloMosaic StableHlo

variable {F : FTy → Type} [FloatOps F]

/-- Operations 19 … 36: each fact after them is an operation's value at the facts before them, its stage by definition. -/
theorem stretch1 {W x0 x1 x2 x3} (h : Cut1 (F := F) W x0 x1 x2 x3) : Cut2 (after ops1 W) x0 x1 x2 x3 := by
  unfold Cut1 at h
  refine ⟨?_, ?_, ?_, ?_, ?_, ?_, ?_, ?_, ?_, ?_, ?_⟩ <;> after_results_simp <;> (try simp only [TRef.ofBuf, TRef.toBuf, cast_eq, h]) <;> rfl

end Cert.ReferenceIdeal.Hand.Run
-- ==== Proof.RefRunS2.lean ====
import proofs.«429718_j54400055771394_3_alg».proof.Proof.RefRunDefs

namespace Cert.ReferenceIdeal.Hand.Run

open Idealize.ShloMosaic StableHlo

variable {F : FTy → Type} [FloatOps F]

theorem stretch2 {W x0 x1 x2 x3} (h : Cut2 (F := F) W x0 x1 x2 x3) : Cut3 (after ops2 W) x0 x1 x2 x3 := by
  unfold Cut2 at h
  refine ⟨?_, ?_, ?_, ?_, ?_, ?_, ?_, ?_, ?_, ?_, ?_, ?_⟩ <;> after_results_simp <;> (try simp only [TRef.ofBuf, TRef.toBuf, cast_eq, h]) <;> rfl

end Cert.ReferenceIdeal.Hand.Run
-- ==== Proof.RefRunS3.lean ====
import proofs.«429718_j54400055771394_3_alg».proof.Proof.RefRunDefs

namespace Cert.ReferenceIdeal.Hand.Run

open Idealize.ShloMosaic StableHlo

variable {F : FTy → Type} [FloatOps F]

/-- Operations 54 … 71: each fact after them is an operation's value at the facts before them, its stage by definition. -/
theorem stretch3 {W x0 x1 x2 x3} (h : Cut3 (F := F) W x0 x1 x2 x3) : Cut4 (after ops3 W) x0 x1 x2 x3 := by
  unfold Cut3 at h
  refine ⟨?_, ?_, ?_, ?_, ?_, ?_, ?_, ?_, ?_, ?_, ?_⟩ <;> after_results_simp <;> (try simp only [TRef.ofBuf, TRef.toBuf, cast_eq, h]) <;> rfl

end Cert.ReferenceIdeal.Hand.Run
-- ==== Proof.RefRunS4.lean ====
import proofs.«429718_j54400055771394_3_alg».proof.Proof.RefRunDefs

namespace Cert.ReferenceIdeal.Hand.Run

open Idealize.ShloMosaic StableHlo

variable {F : FTy → Type} [FloatOps F]

/-- Operations 72 … 88: each fact after them is an operation's value at the facts before them, its stage by definition. -/
theorem stretch4 {W x0 x1 x2 x3} (h : Cut4 (F := F) W x0 x1 x2 x3) : Cut5 (after ops4 W) x0 x1 x2 x3 := by
  unfold Cut4 at h
  refine ⟨?_, ?_, ?_, ?_, ?_, ?_, ?_, ?_, ?_, ?_, ?_, ?_⟩ <;> after_results_simp <;> (try simp only [h]) <;> rfl

end Cert.ReferenceIdeal.Hand.Run
-- ==== Proof.RefRunS5.lean ====
import proofs.«429718_j54400055771394_3_alg».proof.Proof.RefRunDefs

namespace Cert.ReferenceIdeal.Hand.Run

open Idealize.ShloMosaic StableHlo

variable {F : FTy → Type} [FloatOps F]

/-- Operations 89 … 105: each fact after them is an operation's value at the facts before them, its stage by definition. -/
theorem stretch5 {W x0 x1 x2 x3} (h : Cut5 (F := F) W x0 x1 x2 x3) : Cut6 (after ops5 W) x0 x1 x2 x3 := by
  unfold Cut5 at h
  refine ⟨?_, ?_, ?_, ?_, ?_, ?_, ?_, ?_, ?_, ?_, ?_, ?_⟩ <;> after_results_simp <;> (try simp only [TRef.ofBuf, TRef.toBuf, cast_eq, h]) <;> rfl

end Cert.ReferenceIdeal.Hand.Run
-- ==== Proof.RefRunS6.lean ====
import proofs.«429718_j54400055771394_3_alg».proof.Proof.RefRunDefs

namespace Cert.ReferenceIdeal.Hand.Run

open Idealize.ShloMosaic StableHlo

variable {F : FTy → Type} [FloatOps F]

/-- Operations 106 … 121: each fact after them is an operation's value at the facts before them, its stage by definition. -/
theorem stretch6 {W x0 x1 x2 x3} (h : Cut6 (F := F) W x0 x1 x2 x3) : Cut7 (after ops6 W) x0 x1 x2 x3 := by
  unfold Cut6 at h
  refine ⟨?_, ?_, ?_, ?_, ?_, ?_, ?_, ?_, ?_, ?_, ?_⟩ <;> after_results_simp <;> (try simp only [h]) <;> rfl

end Cert.ReferenceIdeal.Hand.Run
-- ==== Proof.RefRunS7.lean ====
import proofs.«429718_j54400055771394_3_alg».proof.Proof.RefRunDefs

namespace Cert.ReferenceIdeal.Hand.Run

open Idealize.ShloMosaic StableHlo

variable {F : FTy → Type} [FloatOps F]

/-- Operations 122 … 138: each fact after them is an operation's value at the facts before them, its stage by definition. -/
theorem stretch7 {W x0 x1 x2 x3} (h : Cut7 (F := F) W x0 x1 x2 x3) : Cut8 (after ops7 W) x0 x1 x2 x3 := by
  unfold Cut7 at h
  refine ⟨?_, ?_, ?_, ?_, ?_, ?_, ?_, ?_, ?_, ?_, ?_, ?_, ?_⟩ <;> after_results_simp <;> (try simp only [TRef.ofBuf, TRef.toBuf, cast_eq, h]) <;> rfl

end Cert.ReferenceIdeal.Hand.Run
-- ==== Proof.RefRunS8.lean ====
import proofs.«429718_j54400055771394_3_alg».proof.Proof.RefRunDefs

namespace Cert.ReferenceIdeal.Hand.Run

open Idealize.ShloMosaic StableHlo

variable {F : FTy → Type} [FloatOps F]

/-- Operations 139 … 156: each fact after them is an operation's value at the facts before them, its stage by definition. -/
theorem stretch8 {W x0 x1 x2 x3} (h : Cut8 (F := F) W x0 x1 x2 x3) : Cut9 (after ops8 W) x0 x1 x2 x3 := by
  unfold Cut8 at h
  refine ⟨?_, ?_, ?_, ?_, ?_, ?_, ?_, ?_, ?_, ?_, ?_, ?_⟩ <;> after_results_simp <;> (try simp only [TRef.ofBuf, TRef.toBuf, cast_eq, h]) <;> rfl

end Cert.ReferenceIdeal.Hand.Run
-- ==== Proof.RefRunS9.lean ====
import proofs.«429718_j54400055771394_3_alg».proof.Proof.RefRunDefs

namespace Cert.ReferenceIdeal.Hand.Run

open Idealize.ShloMosaic StableHlo

variable {F : FTy → Type} [FloatOps F]

/-- Operations 157 … 173: each fact after them is an operation's value at the facts before them, its stage by definition. -/
theorem stretch9 {W x0 x1 x2 x3} (h : Cut9 (F := F) W x0 x1 x2 x3) : Cut10 (after ops9 W) x0 x1 x2 x3 := by
  unfold Cut9 at h
  refine ⟨?_, ?_, ?_, ?_, ?_, ?_, ?_, ?_, ?_, ?_⟩ <;> after_results_simp <;> (try simp only [h]) <;> rfl

end Cert.ReferenceIdeal.Hand.Run
-- ==== Proof.RefRunS10.lean ====
import proofs.«429718_j54400055771394_3_alg».proof.Proof.RefRunDefs

namespace Cert.ReferenceIdeal.Hand.Run

open Idealize.ShloMosaic StableHlo

variable {F : FTy → Type} [FloatOps F]

/-- Operations 174 … 191: each fact after them is an operation's value at the facts before them, its stage by definition. -/
theorem stretch10 {W x0 x1 x2 x3} (h : Cut10 (F := F) W x0 x1 x2 x3) : Cut11 (after ops10 W) x0 x1 x2 x3 := by
  unfold Cut10 at h
  refine ⟨?_, ?_, ?_, ?_, ?_, ?_, ?_, ?_, ?_⟩ <;> after_results_simp <;> (try simp only [TRef.ofBuf, TRef.toBuf, cast_eq, h]) <;> rfl

end Cert.ReferenceIdeal.Hand.Run
-- ==== Proof.RefRunS11.lean ====
import proofs.«429718_j54400055771394_3_alg».proof.Proof.RefRunDefs

namespace Cert.ReferenceIdeal.Hand.Run

open Idealize.ShloMosaic StableHlo

variable {F : FTy → Type} [FloatOps F]

/-- Operations 192 … 208: each fact after them is an operation's value at the facts before them, its stage by definition. -/
theorem stretch11 {W x0 x1 x2 x3} (h : Cut11 (F := F) W x0 x1 x2 x3) : Cut12 (after ops11 W) x0 x1 x2 x3 := by
  unfold Cut11 at h
  refine ⟨?_, ?_, ?_, ?_, ?_, ?_, ?_⟩ <;> after_results_simp <;> (try simp only [TRef.ofBuf, TRef.toBuf, cast_eq, h]) <;> rfl

end Cert.ReferenceIdeal.Hand.Run
-- ==== Proof.RefRunS12.lean ====
import proofs.«429718_j54400055771394_3_alg».proof.Proof.RefRunDefs

namespace Cert.ReferenceIdeal.Hand.Run

open Idealize.ShloMosaic StableHlo

variable {F : FTy → Type} [FloatOps F]

/-- Operations 209 … 214: each fact after them is an operation's value at the facts before them, its stage by definition. -/
theorem stretch12 {W x0 x1 x2 x3} (h : Cut12 (F := F) W x0 x1 x2 x3) : Cut13 (after ops12 W) x0 x1 x2 x3 := by
  unfold Cut12 at h
  refine ⟨?_, ?_, ?_, ?_, ?_, ?_⟩ <;> after_results_simp <;> (try simp only [h]) <;> rfl

end Cert.ReferenceIdeal.Hand.Run
-- ==== Proof.RefRun.lean ====
import proofs.«429718_j54400055771394_3_alg».proof.Proof.RefRunS0
import proofs.«429718_j54400055771394_3_alg».proof.Proof.RefRunS1
import proofs.«429718_j54400055771394_3_alg».proof.Proof.RefRunS2
import proofs.«429718_j54400055771394_3_alg».proof.Proof.RefRunS3
import proofs.«429718_j54400055771394_3_alg».proof.Proof.RefRunS4
import proofs.«429718_j54400055771394_3_alg».proof.Proof.RefRunS5
import proofs.«429718_j54400055771394_3_alg».proof.Proof.RefRunS6
import proofs.«429718_j54400055771394_3_alg».proof.Proof.RefRunS7
import proofs.«429718_j54400055771394_3_alg».proof.Proof.RefRunS8
import proofs.«429718_j54400055771394_3_alg».proof.Proof.RefRunS9
import proofs.«429718_j54400055771394_3_alg».proof.Proof.RefRunS10
import proofs.«429718_j54400055771394_3_alg».proof.Proof.RefRunS11
import proofs.«429718_j54400055771394_3_alg».proof.Proof.RefRunS12

namespace Cert.ReferenceIdeal.Hand.Run

open Cert.ReferenceIdeal Cert.ReferenceIdeal.Gen Idealize.ShloMosaic Idealize.ShloMosaic.TcCoe Idealize.SL.Sem Idealize.ShloMosaic.StableHlo

variable {F : FTy → Type} [FloatOps F]

/-- @main is four parts in a row: the first three as the stretches each holds (the fourth is the last stretch), then all 214 operations in order. -/
abbrev opsW0 : List (HloOp τ sig (Elt F)) := ops0 ++ (ops1 ++ (ops2 ++ ops3))
abbrev opsW1 : List (HloOp τ sig (Elt F)) := ops4 ++ (ops5 ++ (ops6 ++ ops7))
abbrev opsW2 : List (HloOp τ sig (Elt F)) := ops8 ++ (ops9 ++ (ops10 ++ ops11))
abbrev ops : List (HloOp τ sig (Elt F)) := opsW0 ++ (opsW1 ++ (opsW2 ++ ops12))

set_option maxRecDepth 2048 in
set_option maxHeartbeats 1000000 in
/-- A list run in order is its pieces run in order, and each part of @main is its list by definition. -/
theorem main_eq (c : Dev nD) : main (F := F) c = seq ops := by
  rw [seq_append opsW0, seq_append opsW1, seq_append opsW2]; rfl

/-- The run's side condition on buffers holds of the whole list because it holds of each stretch. -/
theorem ops_sub : (ops : List (HloOp τ sig (Elt F))).Forall fun op => op.bufs ⊆ tcRefs τ sig := by
  simp only [List.forall_append]
  exact ⟨⟨ops0_sub, ops1_sub, ops2_sub, ops3_sub⟩, ⟨ops4_sub, ops5_sub, ops6_sub, ops7_sub⟩,
    ⟨ops8_sub, ops9_sub, ops10_sub, ops11_sub⟩, ops12_sub⟩

/-- No operation allocates: each one's set of allocated buffers is empty by definition, down the list. -/
theorem ops_fresh : ∀ op ∈ (ops : List (HloOp τ sig (Elt F))), op.fresh = ∅ := by
  repeat first
    | refine List.forall_mem_append.2 ⟨?_, ?_⟩
    | refine List.forall_mem_cons.2 ⟨rfl, ?_⟩
    | exact List.forall_mem_nil _

/-- From any contents the thirteen stretches in a row, each from the cut the one before it leaves, reach the last cut. -/
theorem chain (V : Valuation τ sig (Elt F)) :
    Cut13 (after ops V) (V (Proc.devRef .tc main_arg0)) (V (Proc.devRef .tc main_arg1))
      (V (Proc.devRef .tc main_arg2)) (V (Proc.devRef .tc main_arg3)) := by
  simp only [after_append]
  exact stretch12 (stretch11 (stretch10 (stretch9 (stretch8 (stretch7 (stretch6 (stretch5 (stretch4 (stretch3
    (stretch2 (stretch1 (stretch0 ⟨rfl, rfl, rfl, rfl⟩))))))))))))

/-- The library's run of a straight line leaves every buffer at the fold of the operations over the launch contents; the last cut reads it. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95) = Read.val_main_v95 (F := F) (m ((c.tc : Thread nD τ).loc main_arg0)) (m ((c.tc : Thread nD τ).loc main_arg1)) (m ((c.tc : Thread nD τ).loc main_arg2))
      ∧ r.2.mem ((c.tc : Thread nD τ).loc main_v153) = Read.val_main_v153 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      have ⟨e0, e1, e2, e3, e95, e153⟩ := chain (F := F) (launchContents m c)
      ⟨(h c _).trans e95, (h c _).trans e153, (h c _).trans e0, (h c _).trans e1, (h c _).trans e2, (h c _).trans e3⟩)
    (run_seq (by decide) (by decide) defs main (fun _ => ops) main_eq (fun _ => ops_sub) m ρ fun _ => ops_fresh)

end Cert.ReferenceIdeal.Hand.Run
-- ==== Proof.BodyDefs.lean ====
import proofs.«429718_j54400055771394_3_alg».proof.Proof.Gen.KernelIdeal.Skeleton
import Idealize.ShloMosaic.Lib.Pipeline.FrameBody

noncomputable section

namespace Cert.KernelIdeal.Hand

open Idealize.ShloMosaic Cert.KernelIdeal Cert.KernelIdeal.Gen
open Cert.KernelIdeal.Facts₀

variable {F : FTy → Type} [FloatOps F]

/-- The rectangle of chunk `k` inside a block. -/
abbrev chunkRect (k : Fin k0_t1_loop.trips) : Rect S1x8x256x288 :=
  Rect.unit (s := S1x8x256x288) (k0_off2 k) S1x4x256x288.size (Facts₀.k0_off2_inb k)

abbrev chunkOf (x : Vec F S1x8x256x288 .f32) (k : Fin k0_t1_loop.trips) : Vec F S1x4x256x288 .f32 :=
  View.ld x (chunkRect k)

/-- Chunk `k` of the reconstruction block. -/
def reconChunk (xq xp : Vec F S1x8x256x288 .f32) (k : Fin k0_t1_loop.trips) : FVec F S1x4x256x288 .f32 :=
  k0_pay14 (k0_pay2 (chunkOf xq k)) (k0_pay3 (chunkOf xp k)) (k0_pay5 (chunkOf xp k)) (k0_pay8 (chunkOf xq k))
    (k0_pay9 (chunkOf xq k)) (k0_pay10 (F := F))

/-- The co-attention accumulator row after chunk `k`, from its value `a` before. -/
def cStep (xq xp : Vec F S1x8x256x288 .f32) (k : Fin k0_t1_loop.trips) (a : Vec F S1x288 .f32) : FVec F S1x288 .f32 :=
  k0_pay17 a
    (k0_pay15 (k0_pay2 (chunkOf xq k)) (k0_pay3 (chunkOf xp k)) (k0_pay5 (chunkOf xp k)) (k0_pay6 (chunkOf xq k))
      (k0_pay7 (chunkOf xp k)) (k0_pay9 (chunkOf xq k)) (k0_pay10 (F := F)))
    (k0_pay16 (k0_pay2 (chunkOf xq k)) (k0_pay3 (chunkOf xp k)) (k0_pay5 (chunkOf xp k)) (k0_pay6 (chunkOf xq k))
      (k0_pay7 (chunkOf xp k)) (k0_pay9 (chunkOf xq k)) (k0_pay10 (F := F)))

/-- The positive partner's distance accumulator row after chunk `k`. -/
def pStep (xq xp : Vec F S1x8x256x288 .f32) (k : Fin k0_t1_loop.trips) (a : Vec F S1x288 .f32) : FVec F S1x288 .f32 :=
  k0_pay18 (k0_pay2 (chunkOf xq k)) (k0_pay8 (chunkOf xq k))
    (k0_pay13 (k0_pay2 (chunkOf xq k)) (k0_pay3 (chunkOf xp k)) (k0_pay5 (chunkOf xp k)) (k0_pay9 (chunkOf xq k))
      (k0_pay10 (F := F)))
    a

/-- The negative partner's. -/
def nStep (xq xn : Vec F S1x8x256x288 .f32) (k : Fin k0_t1_loop.trips) (a : Vec F S1x288 .f32) : FVec F S1x288 .f32 :=
  k0_pay24 (k0_pay2 (chunkOf xq k)) (k0_pay8 (chunkOf xq k)) (k0_pay19 (chunkOf xn k))
    (k0_pay20 (k0_pay11 (k0_pay2 (chunkOf xq k)) (k0_pay9 (chunkOf xq k)) (k0_pay10 (F := F))) (chunkOf xn k))
    a

abbrev trip0 : Fin k0_t1_loop.trips := ⟨0, by decide⟩
abbrev trip1 : Fin k0_t1_loop.trips := ⟨1, by decide⟩

/-- The reconstruction block: the two chunks' slabs. -/
def reconBlk (xq xp : Vec F S1x8x256x288 .f32) : Vec F S1x8x256x288 .f32 :=
  View.canon (Val := Elt F) [⟨chunkRect trip1, reconChunk xq xp trip1⟩, ⟨chunkRect trip0, reconChunk xq xp trip0⟩]

/-- The co-attention row: both chunks' steps from the initial accumulator. -/
def comaskBlk (xq xp : Vec F S1x8x256x288 .f32) : Vec F S1x1x288 .f32 :=
  k0_pay25 (cStep xq xp trip1 (cStep xq xp trip0 (k0_pay21 (F := F))))

/-- The triplet row, from the two distance accumulators after both chunks. -/
def tripBlk (xq xp xn : Vec F S1x8x256x288 .f32) : Vec F S1x1x288 .f32 :=
  k0_pay1 (k0_pay26 (pStep xq xp trip1 (pStep xq xp trip0 (k0_pay22 (F := F)))))
    (nStep xq xn trip1 (nStep xq xn trip0 (k0_pay23 (F := F))))

end Cert.KernelIdeal.Hand

end
-- ==== Proof.FrameDefs.lean ====
import proofs.«429718_j54400055771394_3_alg».proof.Proof.Gen.KernelIdeal.Launch
import proofs.«429718_j54400055771394_3_alg».proof.Proof.Gen.KernelIdeal.Skeleton
import proofs.«429718_j54400055771394_3_alg».proof.Proof.BodyDefs
import Idealize.ShloMosaic.Lib.Pipeline.FrameSuffix

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The valuation the region starts from: the launch memory after the two operations before it. -/
abbrev V0 (c : Dev nD) : Valuation τ sig (Elt F) := StableHlo.after (List.flatten [hostOps0 (F := F)]) (fun b => m (c, b))
abbrev V (c : Dev nD) (b : Ref sig .tc) : Buf (Elt F) ((c : Thread nD τ).loc b) := V0 m c (Proc.devRef .tc b)

/-- The two index tables at that valuation. -/
def tbl : pre0.Contents (Elt F) := fun j => V m (0 : Dev nD) (pre0.ref j)

abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- Window `w`'s block of its array at grid point `t`. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

abbrev qblk (hO : Ok m) (c : Dev nD) (t : Fin (cfgM m hO).N) : Vec F S1x8x256x288 .f32 := iblk m hO c 0 t
abbrev pblk (hO : Ok m) (c : Dev nD) (t : Fin (cfgM m hO).N) : Vec F S1x8x256x288 .f32 := iblk m hO c 1 t
abbrev nblk (hO : Ok m) (c : Dev nD) (t : Fin (cfgM m hO).N) : Vec F S1x8x256x288 .f32 := iblk m hO c 2 t

/-- At every point the inputs' blocks are kept and the outputs are `reconBlk`, `comaskBlk`, `tripBlk` of them; the one input array's share is split three ways. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => qblk m hO c t
    | ⟨1, _⟩ => pblk m hO c t
    | ⟨2, _⟩ => nblk m hO c t
    | ⟨3, _⟩ => reconBlk (qblk m hO c t) (pblk m hO c t)
    | ⟨4, _⟩ => comaskBlk (qblk m hO c t) (pblk m hO c t)
    | ⟨5, _⟩ => tripBlk (qblk m hO c t) (pblk m hO c t) (nblk m hO c t)
  Φ _ := iprop(Pipeline.ΦA spec0 c ∗ Pipeline.ΦT pre0 (tbl m) c)
  q w := match w with
    | ⟨0, _⟩ => fullShare.left
    | ⟨1, _⟩ => fullShare.right.left
    | ⟨2, _⟩ => fullShare.right.right
    | ⟨_ + 3, _⟩ => fullShare
  owed _ := 0

abbrev arrRecon (hO : Ok m) (c : Dev nD) : Vec F S64x8x256x288 .f32 := (dats m hO 0 c).arrAt 3 (cfgM m hO).N
abbrev arrComask (hO : Ok m) (c : Dev nD) : Vec F S64x1x288 .f32 := (dats m hO 0 c).arrAt 4 (cfgM m hO).N
abbrev arrTrip (hO : Ok m) (c : Dev nD) : Vec F S64x1x288 .f32 := (dats m hO 0 c).arrAt 5 (cfgM m hO).N

/-- The first result: the reconstruction array reshaped. -/
def outRecon (hO : Ok m) (c : Dev nD) : Vec F S64x2048x24x12 .f32 :=
  shapeCast S64x2048x24x12 (arrRecon m hO c) Facts₀.shapeCasts_S64x8x256x288_S64x2048x24x12

/-- The second result: both small arrays summed over samples, multiplied pointwise, summed and divided. -/
def outLoss (hO : Ok m) (c : Dev nD) : Vec F S_ .f32 :=
  Host.divf
    (Host.reduceAdd
      (mulf
        (Host.reduceAdd (shapeCast S64x288 (arrComask m hO c) Facts₀.shapeCasts_S64x1x288_S64x288)
          (constant (F := F) S_ .f32 0x00000000#32) Facts₀.reducesTo_S64x288_S288_d0 Facts₀.h_S_)
        (Host.reduceAdd (shapeCast S64x288 (arrTrip m hO c) Facts₀.shapeCasts_S64x1x288_S64x288)
          (constant (F := F) S_ .f32 0x00000000#32) Facts₀.reducesTo_S64x288_S288_d0 Facts₀.h_S_))
      (constant (F := F) S_ .f32 0x00000000#32) Facts₀.reducesTo_S288_S_d0 Facts₀.h_S_)
    (constant (F := F) S_ .f32 0x49900000#32)

end Cert.KernelIdeal.Hand

end
-- ==== Proof.Body.lean ====
import proofs.«429718_j54400055771394_3_alg».proof.Proof.BodyDefs
import proofs.«429718_j54400055771394_3_alg».proof.Proof.Gen.KernelIdeal.Loops
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The contents of the buffer under a memref. -/
abbrev Cts (F : FTy → Type) {sp : Space} {S : Shape} {e : EltTy} (m : Memref sig .tc sp S e) := BufTy.Contents (Elt F) m.view.ty

/-- The rectangle that is a whole accumulator row. -/
abbrev row : Rect S1x288 := Rect.unit (s := S1x288) ![0, 0] S1x288.size Facts₀.inb_S1x288_S1x288_0_0

variable (c : Dev nD) (i : grid0.Coords) (arg1 : Memref sig .tc .smem S64 .i32) (harg1 : arg1.IsWhole) (arg2 : Memref sig .tc .smem S64 .i32) (harg2 : arg2.IsWhole) (arg3 : Memref sig .tc .vmem S1x8x256x288 .f32) (harg3 : arg3.IsWhole) (arg4 : Memref sig .tc .vmem S1x8x256x288 .f32) (harg4 : arg4.IsWhole) (arg5 : Memref sig .tc .vmem S1x8x256x288 .f32) (harg5 : arg5.IsWhole) (arg6 : Memref sig .tc .vmem S1x8x256x288 .f32) (harg6 : arg6.IsWhole) (arg7 : Memref sig .tc .vmem S1x1x288 .f32) (harg7 : arg7.IsWhole) (arg8 : Memref sig .tc .vmem S1x1x288 .f32) (harg8 : arg8.IsWhole) (arg9 : Memref sig .tc .vmem S1x288 .f32) (harg9 : arg9.IsWhole) (arg10 : Memref sig .tc .vmem S1x288 .f32) (harg10 : arg10.IsWhole) (arg11 : Memref sig .tc .vmem S1x288 .f32) (harg11 : arg11.IsWhole)
  (f3 : Cts F arg3) (f4 : Cts F arg4) (f5 : Cts F arg5) (f6 : Cts F arg6) (f7 : Cts F arg7) (f8 : Cts F arg8) (f9 : Cts F arg9) (f10 : Cts F arg10) (f11 : Cts F arg11)

/-- The whole buffer under `m` held at contents `f`. -/
abbrev pts {sp : Space} {S : Shape} {e : EltTy} (m : Memref sig .tc sp S e) (f : Cts F m) : sProp 𝕄 :=
  m.view.loc (c : Thread nD τ) ↦[m.view.set]{fullShare} f

/-- What `m`'s view reads off contents `f`. -/
abbrev rd {sp : Space} {S : Shape} {e : EltTy} (m : Memref sig .tc sp S e) (f : Cts F m) := m.view.read (Elt F) f

/-- Both chunks' slabs, the later trip's first. -/
abbrev slabs (xq xp : Vec F S1x8x256x288 .f32) : List (View.Piece (Elt F) S1x8x256x288 .f32) :=
  [⟨chunkRect trip1, reconChunk xq xp trip1⟩, ⟨chunkRect trip0, reconChunk xq xp trip0⟩]

/-- An accumulator row stepped by both trips from `a`, the later trip's store first. -/
abbrev two (s : Fin k0_t1_loop.trips → Vec F S1x288 .f32 → Vec F S1x288 .f32) (a : Vec F S1x288 .f32) :
    List (View.Piece (Elt F) S1x288 .f32) :=
  [⟨row, s trip1 (s trip0 a)⟩, ⟨row, s trip0 a⟩]

theorem hz2 : (![0, 0] : Fin 2 → ℕ) = fun _ => 0 := by decide
theorem hz3 : (![0, 0, 0] : Fin 3 → ℕ) = fun _ => 0 := by decide

/-- A store through the whole shape, made last, is what the view then reads. -/
theorem read_unit0 {sg : RefSig} {κ : Kind} {sp : Space} {S : Shape} {e : EltTy} {Val : EltTy → Type} [∀ e, Nonempty (Val e)]
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f (⟨Rect.unit off S.size inb, w⟩ :: L)) = w := by
  funext y
  rw [View.read_writes_apply_eq_canon v f y _ ⟨_, List.mem_cons_self, View.mem_set_unit_zero h inb y⟩,
    View.canon_cons_unit_zero h inb]

theorem ld_row {Val : EltTy → Type} (X : S1x288.Idx → Val .f32) : View.ld X row = X :=
  View.ld_unit_zero hz2 _ X

theorem read_row (m : Memref sig .tc .vmem S1x288 .f32) (f : Cts F m) (w : S1x288.Idx → Elt F .f32)
    (L : List (View.Piece (Elt F) S1x288 .f32)) : m.view.read (Elt F) (m.view.writes (Elt F) f (⟨row, w⟩ :: L)) = w :=
  read_unit0 m.view f hz2 _ w L

/-- One trip writes its chunk's slab and, over each accumulator row, that row's step from what the row held. -/
theorem tripL_eq (k : Fin k0_t1_loop.trips) :
    tripL_k0_t1 (F := F) .none c none i arg1 harg1 arg2 harg2 arg3 harg3 arg4 harg4 arg5 harg5 arg6 harg6 arg7 harg7 arg8 harg8 arg9 harg9 arg10 harg10 arg11 harg11 f3 f4 f5 k f6 f9 f10 f11 =
      ([⟨chunkRect k, reconChunk (rd arg3 f3) (rd arg4 f4) k⟩],
       [⟨row, cStep (rd arg3 f3) (rd arg4 f4) k (View.ld (rd arg9 f9) row)⟩],
       [⟨row, pStep (rd arg3 f3) (rd arg4 f4) k (View.ld (rd arg10 f10) row)⟩],
       [⟨row, nStep (rd arg3 f3) (rd arg5 f5) k (View.ld (rd arg11 f11) row)⟩]) := by
  unfold tripL_k0_t1 trip_k0_t1
  dsimp only
  sl_unfold_run_names
  unfold reconChunk cStep pStep nStep
  rfl

/-- The two trips leave both slabs in the reconstruction block and step each accumulator row twice from its entry value. -/
theorem pb_two :
    pb_k0_t1 (F := F) .none c none i arg1 harg1 arg2 harg2 arg3 harg3 arg4 harg4 arg5 harg5 arg6 harg6 arg7 harg7 arg8 harg8 arg9 harg9 arg10 harg10 arg11 harg11 f3 f4 f5 f6 f9 f10 f11 2 =
      (slabs (rd arg3 f3) (rd arg4 f4), two (cStep (rd arg3 f3) (rd arg4 f4)) (rd arg9 f9),
       two (pStep (rd arg3 f3) (rd arg4 f4)) (rd arg10 f10), two (nStep (rd arg3 f3) (rd arg5 f5)) (rd arg11 f11)) := by
  rw [pb_k0_t1_succ (k := trip1), pb_k0_t1_succ (k := trip0), pb_k0_t1.eq_1, tripL_eq, tripL_eq]
  simp only [View.writes_nil, List.append_nil, List.nil_append, List.cons_append, ld_row, read_row]

set_option maxHeartbeats 4000000 in
/-- The pieces the stores leave in each output block, found by running the body from the contents it is handed. -/
@[irreducible] def kernelRun : Σ' (L6 : List (View.Piece (Elt F) S1x8x256x288 .f32)) (L7 : List (View.Piece (Elt F) S1x1x288 .f32)),
    { L8 : List (View.Piece (Elt F) S1x1x288 .f32) // ∀ (E : Set ℕ) (K : PUnit → sProp 𝕄),
      iprop(pts c arg3 f3 ∗ pts c arg4 f4 ∗ pts c arg5 f5 ∗ pts c arg6 f6 ∗ pts c arg7 f7 ∗ pts c arg8 f8 ∗ pts c arg9 f9 ∗ pts c arg10 f10 ∗ pts c arg11 f11
          ∗ ((pts c arg3 f3 ∗ pts c arg4 f4 ∗ pts c arg5 f5 ∗ pts c arg6 (arg6.view.writes (Elt F) f6 L6) ∗ pts c arg7 (arg7.view.writes (Elt F) f7 L7)
              ∗ pts c arg8 (arg8.view.writes (Elt F) f8 L8) ∗ (∃ d, pts c arg9 d) ∗ (∃ d, pts c arg10 d) ∗ (∃ d, pts c arg11 d)) -∗ K ⟨⟩))
        ⊢ wp frame (wpE (defs₀ (F := F)) Variants.none c none) E (cc0__cm_attn_kernel i arg1 harg1 arg2 harg2 arg3 harg3 arg4 harg4 arg5 harg5 arg6 harg6 arg7 harg7 arg8 harg8 arg9 harg9 arg10 harg10 arg11 harg11) K } :=
  ⟨_, _, _, fun E K => by
    simp only [cc0__cm_attn_kernel_eq_skeleton]; unfold cc0__cm_attn_kernel_skel
    simp only [k0_part4_eq_skeleton]
    iintro ⟨H3, H4, H5, H6, H7, H8, H9, H10, H11, Hk⟩
    sl_exec
    sl_step
    iapply Hk
    sl_close⟩

theorem trips_two : Scf.trips k0_t1_loop.lb k0_t1_loop.ub k0_t1_loop.st = 2 := by decide

/-- Read back, the three output blocks are the block functions of what the input blocks read. -/
theorem reads :
    arg6.view.read (Elt F) (arg6.view.writes (Elt F) f6 (kernelRun c i arg1 harg1 arg2 harg2 arg3 harg3 arg4 harg4 arg5 harg5 arg6 harg6 arg7 harg7 arg8 harg8 arg9 harg9 arg10 harg10 arg11 harg11 f3 f4 f5 f6 f7 f8 f9 f10 f11).1) = reconBlk (rd arg3 f3) (rd arg4 f4)
    ∧ arg7.view.read (Elt F) (arg7.view.writes (Elt F) f7 (kernelRun c i arg1 harg1 arg2 harg2 arg3 harg3 arg4 harg4 arg5 harg5 arg6 harg6 arg7 harg7 arg8 harg8 arg9 harg9 arg10 harg10 arg11 harg11 f3 f4 f5 f6 f7 f8 f9 f10 f11).2.1) = comaskBlk (rd arg3 f3) (rd arg4 f4)
    ∧ arg8.view.read (Elt F) (arg8.view.writes (Elt F) f8 (kernelRun c i arg1 harg1 arg2 harg2 arg3 harg3 arg4 harg4 arg5 harg5 arg6 harg6 arg7 harg7 arg8 harg8 arg9 harg9 arg10 harg10 arg11 harg11 f3 f4 f5 f6 f7 f8 f9 f10 f11).2.2.1) = tripBlk (rd arg3 f3) (rd arg4 f4) (rd arg5 f5) := by
  unfold kernelRun
  dsimp only
  refine ⟨?_, ?_, ?_⟩
  · rw [show Scf.trips (0#32) (Scalar.addi 0#32 2#32) 1#32 = 2 from trips_two, pb_two]
    exact View.read_writes_eq_canon _ _ _ (View.cover_of_tiledL _ S1x4x256x288.size (by sl_kernel_rfl))
  all_goals
    rw [read_unit0 (Val := Elt F) _ _ hz3]
    sl_unfold_run_names
    rw [trips_two, pb_two]
    dsimp only
    simp only [two, rd, List.cons_append, List.nil_append]
  · rw [View.readAt_eq_ld, ld_row, read_row arg9, read_row arg9]
    rfl
  · rw [View.readAt_eq_ld, ld_row, View.readAt_eq_ld, ld_row, read_row arg10, read_row arg10, read_row arg11, read_row arg11]
    rfl

/-- The body's triple: from the three input blocks it fills the three output blocks with their block functions. -/
theorem body_run (xq xp xn : Vec F S1x8x256x288 .f32) (E : Set ℕ) (K : PUnit → sProp 𝕄) :
    iprop(owns (c : Thread nD τ) arg3 fullShare xq ∗ owns (c : Thread nD τ) arg4 fullShare xp ∗ owns (c : Thread nD τ) arg5 fullShare xn
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare xq ∗ owns (c : Thread nD τ) arg4 fullShare xp ∗ owns (c : Thread nD τ) arg5 fullShare xn
            ∗ owns (c : Thread nD τ) arg6 fullShare (reconBlk xq xp) ∗ owns (c : Thread nD τ) arg7 fullShare (comaskBlk xq xp)
            ∗ owns (c : Thread nD τ) arg8 fullShare (tripBlk xq xp xn)
            ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0__cm_attn_kernel i arg1 harg1 arg2 harg2 arg3 harg3 arg4 harg4 arg5 harg5 arg6 harg6 arg7 harg7 arg8 harg8 arg9 harg9 arg10 harg10 arg11 harg11) K := by
  unfold owns
  iintro ⟨⟨%f3, %h3, H3⟩, ⟨%f4, %h4, H4⟩, ⟨%f5, %h5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  subst h3 h4 h5
  obtain ⟨h6, h7, h8⟩ := reads c i arg1 harg1 arg2 harg2 arg3 harg3 arg4 harg4 arg5 harg5 arg6 harg6 arg7 harg7 arg8 harg8 arg9 harg9 arg10 harg10 arg11 harg11 f3 f4 f5 f6 f7 f8 f9 f10 f11
  rw [← h6, ← h7, ← h8]
  iapply (kernelRun c i arg1 harg1 arg2 harg2 arg3 harg3 arg4 harg4 arg5 harg5 arg6 harg6 arg7 harg7 arg8 harg8 arg9 harg9 arg10 harg10 arg11 harg11 f3 f4 f5 f6 f7 f8 f9 f10 f11).2.2.2 E K
  iframe
  iintro ⟨H3, H4, H5, H6, H7, H8, ⟨%g9, H9⟩, ⟨%g10, H10⟩, ⟨%g11, H11⟩⟩
  iapply Hk
  sl_close

end Cert.KernelIdeal.Hand

end
-- ==== Proof.Frame.lean ====
import proofs.«429718_j54400055771394_3_alg».proof.Proof.FrameDefs
import proofs.«429718_j54400055771394_3_alg».proof.Proof.Body
import Idealize.ShloMosaic.Lib.Pipeline.FrameBody

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem V_pre (c : Dev nD) (j : Fin 2) : V m c (pre0.ref j) = tbl m j := by
  obtain rfl : c = 0 := Subsingleton.elim _ _; rfl

/-- Neither of the two earlier operations writes an argument. -/
theorem V_arg (c : Dev nD) {b : Ref sig .tc} (hb : b = main_arg0 ∨ b = main_arg1 ∨ b = main_arg2 ∨ b = main_arg3) :
    V m c b = m ((c : Thread nD τ).loc b) := by
  rcases hb with rfl | rfl | rfl | rfl <;>
  (show StableHlo.after hostOps0 (fun b => m (c, b)) (Proc.devRef .tc _) = _; after_results)

/-- What the body finds in an input window is that window's block of the array. -/
theorem before_in (hO : Ok m) (c : Dev nD) (t : Fin (cfgM m hO).N) {w : Fin 6} (hw : w = 0 ∨ w = 1 ∨ w = 2) (d) :
    (dats m hO 0 c).before w t d = iblk m hO c w t := by
  rcases hw with rfl | rfl | rfl <;>
  exact ((dats m hO 0 c).before_in_eq_fetched _ rfl (fun _ => rfl) (fun _ _ _ => rfl) (fun _ => rfl) t d).trans rfl

/-- The body keeps the three input blocks and leaves `reconBlk`, `comaskBlk`, `tripBlk` of them in the outputs. -/
theorem body_obligation (hO : Ok m) (c : Dev nD) : BodyObligation (dats (F := F) m hO 0 c) (defs₀ (F := F)) Variants.none () Set.univ := fun t => by
  show (iprop(iprop(Pipeline.ΦA spec0 c ∗ ?T) ∗ ?O ∗ bigSep Finset.univ fun w => iprop(∃ d, owns _ _ fullShare ((dats m hO 0 c).before w t d))) : sProp 𝕄)
    ⊢ wp frame _ _ _ fun _ => iprop(iprop(Pipeline.ΦA spec0 c ∗ ?T) ∗ ?O ∗ bigSep Finset.univ fun w => owns _ _ fullShare ((dats m hO 0 c).after w t))
  unfold Pipeline.ΦA
  rw [bigSep_W0, bigSep_W0, scopedRest0_eq]
  iintro ⟨⟨⟨⟨Hs0, Hs1, Hs2⟩, Hr⟩, HT⟩, Ho, ⟨%d0, H0⟩, ⟨%d1, H1⟩, ⟨%d2, H2⟩, ⟨%d3, H3⟩, ⟨%d4, H4⟩, ⟨%d5, H5⟩⟩
  rw [before_in m hO c t (.inl rfl), before_in m hO c t (.inr (.inl rfl)), before_in m hO c t (.inr (.inr rfl))]
  iapply (body_run c _ _ _ _ _ _ _ _ _ _ _ _ _ _ _ _ _ _ _ _ _ _ _ (qblk m hO c t) (pblk m hO c t) (nblk m hO c t) Set.univ _)
  simp only [owns_whole]
  iframe
  isplitl [H3]; · iexists _; iexact H3
  isplitl [H4]; · iexists _; iexact H4
  isplitl [H5]; · iexists _; iexact H5
  iintro ⟨H0, H1, H2, H3, H4, H5, Hs⟩
  dsimp only [dats]
  iframe

/-- `arrays` written out over the six windows. -/
theorem arrays_chain (hO : Ok m) (c : Dev nD)
    (Fv : (w : Fin (cfgM m hO).W) → Buf (Elt F) (((cfgM m hO).win w).arr.view.loc (c : Thread nD τ))) :
    (dats m hO 0 c).arrays Fv
      = iprop((((c : Thread nD τ).loc main_v1) ↦{fullShare.left} Fv 0) ∗ (((c : Thread nD τ).loc main_v1) ↦{fullShare.right.left} Fv 1)
          ∗ (((c : Thread nD τ).loc main_v1) ↦{fullShare.right.right} Fv 2) ∗ (((c : Thread nD τ).loc main_v2_0) ↦{fullShare} Fv 3)
          ∗ (((c : Thread nD τ).loc main_v2_1) ↦{fullShare} Fv 4) ∗ (((c : Thread nD τ).loc main_v2_2) ↦{fullShare} Fv 5)) := by
  unfold Dat.arrays
  rw [bigSep_congr fun w _ => by rw [(arr_whole0 w).set_eq_univ], bigSep_W0]
  rfl

/-- `V0` updated at the three result arrays with their final contents. -/
def exitV (hO : Ok m) (c : Dev nD) : Valuation τ sig (Elt F) :=
  Function.update (Function.update (Function.update (V0 m c) (Proc.devRef .tc main_v2_0) (arrRecon m hO c))
    (Proc.devRef .tc main_v2_1) (arrComask m hO c)) (Proc.devRef .tc main_v2_2) (arrTrip m hO c)

theorem exitV_out (hO : Ok m) (c : Dev nD) : exitV m hO c (Proc.devRef .tc main_v2_0) = arrRecon m hO c
    ∧ exitV m hO c (Proc.devRef .tc main_v2_1) = arrComask m hO c ∧ exitV m hO c (Proc.devRef .tc main_v2_2) = arrTrip m hO c := by
  unfold exitV
  refine ⟨?_, ?_, ?_⟩ <;>
  simp (disch := exact StableHlo.devRef_ne_of_ne (by decide)) only [Function.update_self, Function.update_of_ne]

abbrev outL : List (Ref sig .tc) := [main_v2_0, main_v2_1, main_v2_2]

/-- Away from the result arrays `exitV` is `V`. -/
theorem exitV_of_ne (hO : Ok m) (c : Dev nD) (b : Ref sig .tc) (hb : b ∉ outL) : exitV m hO c (Proc.devRef .tc b) = V m c b := by
  simp only [outL, List.mem_cons, List.mem_nil_iff, or_false, not_or] at hb
  unfold exitV
  rw [Function.update_of_ne (StableHlo.devRef_ne_of_ne hb.2.2), Function.update_of_ne (StableHlo.devRef_ne_of_ne hb.2.1),
    Function.update_of_ne (StableHlo.devRef_ne_of_ne hb.1)]

/-- The result arrays together with the buffers that are neither a window's array nor a table. -/
abbrev tailS : Finset (DevRef τ sig) :=
  (outL.toFinset ∪ Pipeline.restRefsP sig pre0 spec0).map ⟨Proc.devRef (sig := sig) (.tc : Proc τ), Proc.devRef_injective _⟩

/-- `held` over that set: the three result arrays, and the rest at any `X` equal to `W` there. -/
theorem held_tailS (c : Dev nD) (W : Valuation τ sig (Elt F)) (X : (b : Ref sig .tc) → Buf (Elt F) ((c : Thread nD τ).loc b))
    (hX : ∀ b ∈ Pipeline.restRefsP sig pre0 spec0, W (Proc.devRef .tc b) = X b) :
    (StableHlo.held (c : Thread nD τ) tailS W : sProp 𝕄)
      = iprop(iprop((((c : Thread nD τ).loc main_v2_0) ↦{fullShare} W (Proc.devRef .tc main_v2_0))
          ∗ (((c : Thread nD τ).loc main_v2_1) ↦{fullShare} W (Proc.devRef .tc main_v2_1))
          ∗ (((c : Thread nD τ).loc main_v2_2) ↦{fullShare} W (Proc.devRef .tc main_v2_2)))
        ∗ Pipeline.unscopedRestP pre0 spec0 c X) := by
  unfold StableHlo.held tailS Pipeline.unscopedRestP
  rw [bigSep_map, bigSep_union (by decide), bigSep_eq_bigSepL outL (by decide)]
  exact congrArg _ (bigSep_congr fun b hb => by rw [← hX b hb]; rfl)

/-- Each buffer after the twelve later operations. -/
def finV (hO : Ok m) (c : Dev nD) (b : Ref sig .tc) : Buf (Elt F) ((c : Thread nD τ).loc b) :=
  StableHlo.after hostOps1 (exitV m hO c) (Proc.devRef .tc b)

/-- None of the twelve later operations writes a result array. -/
theorem after_out (hO : Ok m) (c : Dev nD) {b : Ref sig .tc} (hb : b = main_v2_0 ∨ b = main_v2_1 ∨ b = main_v2_2) :
    StableHlo.after hostOps1 (exitV m hO c) (Proc.devRef .tc b) = exitV m hO c (Proc.devRef .tc b) := by
  rcases hb with rfl | rfl | rfl <;> after_results

/-- Each later operation touches only buffers of `tailS` and allocates none. -/
theorem tail_ok : ∀ ops ∈ ([hostOps1] : List (List (HloOp τ sig (Elt F)))), ∀ op ∈ ops, op.bufs ⊆ tailS ∧ op.fresh = ∅ := by
  intro ops hops op hop
  obtain rfl := List.mem_singleton.mp hops
  simp only [hostOps1, List.mem_cons, List.mem_nil_iff, or_false] at hop
  rcases hop with rfl | rfl | rfl | rfl | rfl | rfl | rfl | rfl | rfl | rfl | rfl | rfl <;>
  refine ⟨?_, rfl⟩ <;>
  simp only [StableHlo.nullary_bufs, StableHlo.binary_bufs, StableHlo.reshape_bufs, Finset.insert_subset_iff, Finset.singleton_subset_iff] <;>
  (try refine ⟨?_, ?_, ?_⟩) <;> (try refine ⟨?_, ?_⟩) <;>
  exact Finset.mem_map_of_mem _ (by decide)

theorem hsplit (hO : Ok m) (c : Dev nD) :
    (Pipeline.arrBufs spec0 c (V m c) : sProp 𝕄) ⊢ (dats m hO 0 c).arrays ((dats m hO 0 c).arrAt · 0) := by
  unfold Pipeline.arrBufs
  rw [bigSep_eq_bigSepL_of_eq [main_v1, main_v2_0, main_v2_1, main_v2_2] (by decide) (by decide), arrays_chain]
  show iprop(_ ∗ _ ∗ _ ∗ (((c : Thread nD τ).loc main_v2_2) ↦{fullShare} _)) ⊢ _
  iintro ⟨H1, H3, H4, H5⟩
  ihave H1 := (pointsTo_share (PosShare.mem_left_op_right fullShare)).1 $$ H1
  icases H1 with ⟨Hl, Hr⟩
  ihave Hr := (pointsTo_share (PosShare.mem_left_op_right fullShare.right)).1 $$ Hr
  icases Hr with ⟨Hrl, Hrr⟩
  isplitl [Hl]; · iexact Hl
  isplitl [Hrl]; · iexact Hrl
  isplitl [Hrr]; · iexact Hrr
  isplitl [H3]; · iexact H3
  isplitl [H4]; · iexact H4
  iexact H5

theorem fin_v3 (hO : Ok m) (c : Dev nD) : finV m hO c main_v3 = outRecon m hO c := by
  unfold finV outRecon
  after_results
  rw [(exitV_out m hO c).1]
  rfl

theorem fin_v10 (hO : Ok m) (c : Dev nD) : finV m hO c main_v10 = outLoss m hO c := by
  unfold finV outLoss
  after_results
  rw [(exitV_out m hO c).2.1, (exitV_out m hO c).2.2]
  rfl

theorem fin_arg (hO : Ok m) (c : Dev nD) {b : Ref sig .tc} (hb : b = main_arg0 ∨ b = main_arg1) :
    finV m hO c b = m ((c : Thread nD τ).loc b) := by
  unfold finV
  rcases hb with rfl | rfl <;> after_results <;> rw [exitV_of_ne m hO c _ (by decide), V_arg m c (by decide)]

set_option backward.isDefEq.respectTransparency.types false in
theorem run_main (hO : Ok m) :
    θ_run defs (onTc (τ := τ) (main (F := F))) ⟨m, fun _ => 0, ρ⟩ (fun r => ∀ c : Dev nD,
      r.2.mem ((c.tc : Thread nD τ).loc main_v3) = outRecon m hO c
      ∧ r.2.mem ((c.tc : Thread nD τ).loc main_v10) = outLoss m hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  classical
  have hinj := cellOf_inj fun _ => adm m hO
  exact Pipeline.θ_run_region_pf_tail pcfgs (fun _ => adm m hO) (dats m hO) () hinj (0 : Fin 1)
    winFacts₀0 (Pipeline.OwnSemFacts.none spec0) preFacts0 emb₁ defs₀ Variants.none m ρ main
    (fun _ => Pipeline.chain [StableHlo.seq hostOps1]) (fun c => (body_obligation m hO c).loose)
    block_pos0 arr_whole0 stage_whole0 (fun _ _ => rfl)
    (G := fun _ => iprop(emp))
    (u₀ := initOf (Pipeline.cells _ hinj) (Pipeline.launchToks _ hinj))
    (hu₀ := by
      iintro Hu; imodintro
      isplitl [Hu]
      · iapply (show (ownU _ : sProp 𝕄) ⊢ BI.own (emb₁ (initOf (Pipeline.cells _ hinj) (Pipeline.launchToks _ hinj))) from .rfl)
        iexact Hu
      iapply (show (BI.emp : sProp 𝕄) ⊢ bigSep Finset.univ (fun _ : Dev nD => (BI.emp : sProp 𝕄)) from by rw [BI.bigSep_emp_const])
      iempintro)
    (V := V m)
    (hmain := Pipeline.hmainP_around pcfgs 0 defs₀ Variants.none m main [hostOps0] [hostOps1] hostOps0_sub
      (by simp only [List.Forall]; repeat' constructor) main_chain)
    (hsplit := hsplit m hO)
    (hpf := V_pre m)
    (X := fun c => iprop(∃ r, prngReg c r)) (Y := fun c => iprop(∃ r, prngReg c r))
    (Z := fun c => Pipeline.unscopedRestP pre0 spec0 c (V m c))
    (Z' := fun c => Pipeline.unscopedRestP pre0 spec0 c (finV m hO c))
    (hX := fun c => by
      iintro ⟨HU, -, -, -, Hp, -⟩; imodintro
      iframe HU; iexists _; iexact Hp)
    (hin := fun c => by
      show _ ⊢ iprop(Pipeline.ΦA spec0 c ∗ Pipeline.ΦT pre0 (tbl m) c)
      unfold Pipeline.ΦA Pipeline.ΦT; iintro ⟨Hp, Ht, Hr⟩; iframe)
    (hout := fun c => by
      show iprop(Pipeline.ΦA spec0 c ∗ Pipeline.ΦT pre0 (tbl m) c) ⊢ _
      rw [Pipeline.ownSems0_none]; unfold Pipeline.ΦA
      iintro ⟨⟨Hr, Hp⟩, -⟩; iframe; iempintro)
    (htail := fun c Q' => by
      have hw := Pipeline.wp_seqs_then pcfgs defs₀ Variants.none c tailS [] [hostOps1] (fun o h p q => (tail_ok o h p q).1)
        (fun o h p q => (tail_ok o h p q).2) (exitV m hO c) (K := Q')
      rw [List.flatten_cons, List.flatten_nil, List.append_nil, Pipeline.chain_nil, wp_pure,
        held_tailS c (exitV m hO c) (V m c) fun b hb => exitV_of_ne m hO c b (by revert b; decide),
        held_tailS c (StableHlo.after hostOps1 (exitV m hO c)) (finV m hO c) fun _ _ => rfl,
        after_out m hO c (.inl rfl), after_out m hO c (.inr (.inl rfl)), after_out m hO c (.inr (.inr rfl)),
        (exitV_out m hO c).1, (exitV_out m hO c).2.1, (exitV_out m hO c).2.2] at hw
      rw [arrays_chain]
      iintro ⟨Hk, Hb, ⟨A0, A1, A2, O3, O4, O5⟩, HZ⟩
      iapply hw $$ [Hb O3 O4 O5 HZ]
      · iframe
      iintro ⟨Hb, Hh⟩
      imodintro
      iapply Hk
      iframe)
    (QY := fun c s => ∀ b ∈ Pipeline.restRefsP sig pre0 spec0, s.mem ((c.tc : Thread nD τ).loc b) = finV m hO c b)
    (hY := fun c s' => by
      iintro ⟨-, HU, HSI⟩
      unfold Pipeline.unscopedRestP
      imodintro
      iapply (pointsTo_read_all (Pipeline.restRefsP sig pre0 spec0) (fun b => (c.tc : Thread nD τ).loc b) (finV m hO c) s')
      iframe)
    (hQ := fun s h c =>
      ⟨((h c).2.2 main_v3 (by decide)).trans (fin_v3 m hO c),
       ((h c).2.2 main_v10 (by decide)).trans (fin_v10 m hO c),
       ((h c).2.2 main_arg0 (by decide)).trans (fin_arg m hO c (.inl rfl)),
       ((h c).2.2 main_arg1 (by decide)).trans (fin_arg m hO c (.inr rfl)),
       ((h c).2.1 0).trans ((V_pre m c 0).symm.trans (V_arg m c (.inr (.inr (.inl rfl))))),
       ((h c).2.1 1).trans ((V_pre m c 1).symm.trans (V_arg m c (.inr (.inr (.inr rfl)))))⟩)

end Cert.KernelIdeal.Hand

end
-- ==== Proof.KBodyDefs.lean ====
import proofs.«429718_j54400055771394_3_alg».proof.Proof.Gen.Kernel.Skeleton
import Idealize.ShloMosaic.Lib.Pipeline.FrameBody

noncomputable section

namespace Cert.Kernel.Hand

open Idealize.ShloMosaic Cert.Kernel Cert.Kernel.Gen
open Cert.Kernel.Facts₀

variable {F : FTy → Type} [FloatOps F]

/-- The rectangle of chunk `k` inside a block. -/
abbrev chunkRect (k : Fin k0_t1_loop.trips) : Rect S1x8x256x288 :=
  Rect.unit (s := S1x8x256x288) (k0_off2 k) S1x4x256x288.size (Facts₀.k0_off2_inb k)

abbrev chunkOf (x : Vec F S1x8x256x288 .f32) (k : Fin k0_t1_loop.trips) : Vec F S1x4x256x288 .f32 :=
  View.ld x (chunkRect k)

/-- Chunk `k` of the reconstruction block. -/
def reconChunk (xq xp : Vec F S1x8x256x288 .f32) (k : Fin k0_t1_loop.trips) : FVec F S1x4x256x288 .f32 :=
  k0_pay14 (k0_pay2 (chunkOf xq k)) (k0_pay3 (chunkOf xp k)) (k0_pay5 (chunkOf xp k)) (k0_pay8 (chunkOf xq k))
    (k0_pay9 (chunkOf xq k)) (k0_pay10 (F := F))

/-- The co-attention accumulator row after chunk `k`, from its value `a` before. -/
def cStep (xq xp : Vec F S1x8x256x288 .f32) (k : Fin k0_t1_loop.trips) (a : Vec F S1x288 .f32) : FVec F S1x288 .f32 :=
  k0_pay17 a
    (k0_pay15 (k0_pay2 (chunkOf xq k)) (k0_pay3 (chunkOf xp k)) (k0_pay5 (chunkOf xp k)) (k0_pay6 (chunkOf xq k))
      (k0_pay7 (chunkOf xp k)) (k0_pay9 (chunkOf xq k)) (k0_pay10 (F := F)))
    (k0_pay16 (k0_pay2 (chunkOf xq k)) (k0_pay3 (chunkOf xp k)) (k0_pay5 (chunkOf xp k)) (k0_pay6 (chunkOf xq k))
      (k0_pay7 (chunkOf xp k)) (k0_pay9 (chunkOf xq k)) (k0_pay10 (F := F)))

/-- The positive partner's distance accumulator row after chunk `k`. -/
def pStep (xq xp : Vec F S1x8x256x288 .f32) (k : Fin k0_t1_loop.trips) (a : Vec F S1x288 .f32) : FVec F S1x288 .f32 :=
  k0_pay18 (k0_pay2 (chunkOf xq k)) (k0_pay8 (chunkOf xq k))
    (k0_pay13 (k0_pay2 (chunkOf xq k)) (k0_pay3 (chunkOf xp k)) (k0_pay5 (chunkOf xp k)) (k0_pay9 (chunkOf xq k))
      (k0_pay10 (F := F)))
    a

/-- The negative partner's. -/
def nStep (xq xn : Vec F S1x8x256x288 .f32) (k : Fin k0_t1_loop.trips) (a : Vec F S1x288 .f32) : FVec F S1x288 .f32 :=
  k0_pay24 (k0_pay2 (chunkOf xq k)) (k0_pay8 (chunkOf xq k)) (k0_pay19 (chunkOf xn k))
    (k0_pay20 (k0_pay11 (k0_pay2 (chunkOf xq k)) (k0_pay9 (chunkOf xq k)) (k0_pay10 (F := F))) (chunkOf xn k))
    a

abbrev trip0 : Fin k0_t1_loop.trips := ⟨0, by decide⟩
abbrev trip1 : Fin k0_t1_loop.trips := ⟨1, by decide⟩

/-- The reconstruction block: the two chunks' slabs. -/
def reconBlk (xq xp : Vec F S1x8x256x288 .f32) : Vec F S1x8x256x288 .f32 :=
  View.canon (Val := Elt F) [⟨chunkRect trip1, reconChunk xq xp trip1⟩, ⟨chunkRect trip0, reconChunk xq xp trip0⟩]

/-- The co-attention row: both chunks' steps from the initial accumulator. -/
def comaskBlk (xq xp : Vec F S1x8x256x288 .f32) : Vec F S1x1x288 .f32 :=
  k0_pay25 (cStep xq xp trip1 (cStep xq xp trip0 (k0_pay21 (F := F))))

/-- The triplet row, from the two distance accumulators after both chunks. -/
def tripBlk (xq xp xn : Vec F S1x8x256x288 .f32) : Vec F S1x1x288 .f32 :=
  k0_pay1 (k0_pay26 (pStep xq xp trip1 (pStep xq xp trip0 (k0_pay22 (F := F)))))
    (nStep xq xn trip1 (nStep xq xn trip0 (k0_pay23 (F := F))))

end Cert.Kernel.Hand

end
-- ==== Proof.KFrameDefs.lean ====
import proofs.«429718_j54400055771394_3_alg».proof.Proof.Gen.Kernel.Launch
import proofs.«429718_j54400055771394_3_alg».proof.Proof.Gen.Kernel.Skeleton
import proofs.«429718_j54400055771394_3_alg».proof.Proof.KBodyDefs
import Idealize.ShloMosaic.Lib.Pipeline.FrameSuffix

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The valuation the region starts from: the launch memory after the two operations before it. -/
abbrev V0 (c : Dev nD) : Valuation τ sig (Elt F) := StableHlo.after (List.flatten [hostOps0 (F := F)]) (fun b => m (c, b))
abbrev V (c : Dev nD) (b : Ref sig .tc) : Buf (Elt F) ((c : Thread nD τ).loc b) := V0 m c (Proc.devRef .tc b)

/-- The two index tables at that valuation. -/
def tbl : pre0.Contents (Elt F) := fun j => V m (0 : Dev nD) (pre0.ref j)

abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- Window `w`'s block of its array at grid point `t`. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

abbrev qblk (hO : Ok m) (c : Dev nD) (t : Fin (cfgM m hO).N) : Vec F S1x8x256x288 .f32 := iblk m hO c 0 t
abbrev pblk (hO : Ok m) (c : Dev nD) (t : Fin (cfgM m hO).N) : Vec F S1x8x256x288 .f32 := iblk m hO c 1 t
abbrev nblk (hO : Ok m) (c : Dev nD) (t : Fin (cfgM m hO).N) : Vec F S1x8x256x288 .f32 := iblk m hO c 2 t

/-- At every point the inputs' blocks are kept and the outputs are `reconBlk`, `comaskBlk`, `tripBlk` of them; the one input array's share is split three ways. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => qblk m hO c t
    | ⟨1, _⟩ => pblk m hO c t
    | ⟨2, _⟩ => nblk m hO c t
    | ⟨3, _⟩ => reconBlk (qblk m hO c t) (pblk m hO c t)
    | ⟨4, _⟩ => comaskBlk (qblk m hO c t) (pblk m hO c t)
    | ⟨5, _⟩ => tripBlk (qblk m hO c t) (pblk m hO c t) (nblk m hO c t)
  Φ _ := iprop(Pipeline.ΦA spec0 c ∗ Pipeline.ΦT pre0 (tbl m) c)
  q w := match w with
    | ⟨0, _⟩ => fullShare.left
    | ⟨1, _⟩ => fullShare.right.left
    | ⟨2, _⟩ => fullShare.right.right
    | ⟨_ + 3, _⟩ => fullShare
  owed _ := 0

abbrev arrRecon (hO : Ok m) (c : Dev nD) : Vec F S64x8x256x288 .f32 := (dats m hO 0 c).arrAt 3 (cfgM m hO).N
abbrev arrComask (hO : Ok m) (c : Dev nD) : Vec F S64x1x288 .f32 := (dats m hO 0 c).arrAt 4 (cfgM m hO).N
abbrev arrTrip (hO : Ok m) (c : Dev nD) : Vec F S64x1x288 .f32 := (dats m hO 0 c).arrAt 5 (cfgM m hO).N

/-- The first result: the reconstruction array reshaped. -/
def outRecon (hO : Ok m) (c : Dev nD) : Vec F S64x2048x24x12 .f32 :=
  shapeCast S64x2048x24x12 (arrRecon m hO c) Facts₀.shapeCasts_S64x8x256x288_S64x2048x24x12

/-- The second result: both small arrays summed over samples, multiplied pointwise, summed and divided. -/
def outLoss (hO : Ok m) (c : Dev nD) : Vec F S_ .f32 :=
  Host.divf
    (Host.reduceAdd
      (mulf
        (Host.reduceAdd (shapeCast S64x288 (arrComask m hO c) Facts₀.shapeCasts_S64x1x288_S64x288)
          (constant (F := F) S_ .f32 0x00000000#32) Facts₀.reducesTo_S64x288_S288_d0 Facts₀.h_S_)
        (Host.reduceAdd (shapeCast S64x288 (arrTrip m hO c) Facts₀.shapeCasts_S64x1x288_S64x288)
          (constant (F := F) S_ .f32 0x00000000#32) Facts₀.reducesTo_S64x288_S288_d0 Facts₀.h_S_))
      (constant (F := F) S_ .f32 0x00000000#32) Facts₀.reducesTo_S288_S_d0 Facts₀.h_S_)
    (constant (F := F) S_ .f32 0x49900000#32)

end Cert.Kernel.Hand

end
-- ==== Proof.KBody.lean ====
import proofs.«429718_j54400055771394_3_alg».proof.Proof.KBodyDefs
import proofs.«429718_j54400055771394_3_alg».proof.Proof.Gen.Kernel.Loops
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

/-- The contents of the buffer under a memref. -/
abbrev Cts (F : FTy → Type) {sp : Space} {S : Shape} {e : EltTy} (m : Memref sig .tc sp S e) := BufTy.Contents (Elt F) m.view.ty

/-- The rectangle that is a whole accumulator row. -/
abbrev row : Rect S1x288 := Rect.unit (s := S1x288) ![0, 0] S1x288.size Facts₀.inb_S1x288_S1x288_0_0

variable (c : Dev nD) (i : grid0.Coords) (arg1 : Memref sig .tc .smem S64 .i32) (harg1 : arg1.IsWhole) (arg2 : Memref sig .tc .smem S64 .i32) (harg2 : arg2.IsWhole) (arg3 : Memref sig .tc .vmem S1x8x256x288 .f32) (harg3 : arg3.IsWhole) (arg4 : Memref sig .tc .vmem S1x8x256x288 .f32) (harg4 : arg4.IsWhole) (arg5 : Memref sig .tc .vmem S1x8x256x288 .f32) (harg5 : arg5.IsWhole) (arg6 : Memref sig .tc .vmem S1x8x256x288 .f32) (harg6 : arg6.IsWhole) (arg7 : Memref sig .tc .vmem S1x1x288 .f32) (harg7 : arg7.IsWhole) (arg8 : Memref sig .tc .vmem S1x1x288 .f32) (harg8 : arg8.IsWhole) (arg9 : Memref sig .tc .vmem S1x288 .f32) (harg9 : arg9.IsWhole) (arg10 : Memref sig .tc .vmem S1x288 .f32) (harg10 : arg10.IsWhole) (arg11 : Memref sig .tc .vmem S1x288 .f32) (harg11 : arg11.IsWhole)
  (f3 : Cts F arg3) (f4 : Cts F arg4) (f5 : Cts F arg5) (f6 : Cts F arg6) (f7 : Cts F arg7) (f8 : Cts F arg8) (f9 : Cts F arg9) (f10 : Cts F arg10) (f11 : Cts F arg11)

/-- The whole buffer under `m` held at contents `f`. -/
abbrev pts {sp : Space} {S : Shape} {e : EltTy} (m : Memref sig .tc sp S e) (f : Cts F m) : sProp 𝕄 :=
  m.view.loc (c : Thread nD τ) ↦[m.view.set]{fullShare} f

/-- What `m`'s view reads off contents `f`. -/
abbrev rd {sp : Space} {S : Shape} {e : EltTy} (m : Memref sig .tc sp S e) (f : Cts F m) := m.view.read (Elt F) f

/-- Both chunks' slabs, the later trip's first. -/
abbrev slabs (xq xp : Vec F S1x8x256x288 .f32) : List (View.Piece (Elt F) S1x8x256x288 .f32) :=
  [⟨chunkRect trip1, reconChunk xq xp trip1⟩, ⟨chunkRect trip0, reconChunk xq xp trip0⟩]

/-- An accumulator row stepped by both trips from `a`, the later trip's store first. -/
abbrev two (s : Fin k0_t1_loop.trips → Vec F S1x288 .f32 → Vec F S1x288 .f32) (a : Vec F S1x288 .f32) :
    List (View.Piece (Elt F) S1x288 .f32) :=
  [⟨row, s trip1 (s trip0 a)⟩, ⟨row, s trip0 a⟩]

theorem hz2 : (![0, 0] : Fin 2 → ℕ) = fun _ => 0 := by decide
theorem hz3 : (![0, 0, 0] : Fin 3 → ℕ) = fun _ => 0 := by decide

/-- A store through the whole shape, made last, is what the view then reads. -/
theorem read_unit0 {sg : RefSig} {κ : Kind} {sp : Space} {S : Shape} {e : EltTy} {Val : EltTy → Type} [∀ e, Nonempty (Val e)]
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f (⟨Rect.unit off S.size inb, w⟩ :: L)) = w := by
  funext y
  rw [View.read_writes_apply_eq_canon v f y _ ⟨_, List.mem_cons_self, View.mem_set_unit_zero h inb y⟩,
    View.canon_cons_unit_zero h inb]

theorem ld_row {Val : EltTy → Type} (X : S1x288.Idx → Val .f32) : View.ld X row = X :=
  View.ld_unit_zero hz2 _ X

theorem read_row (m : Memref sig .tc .vmem S1x288 .f32) (f : Cts F m) (w : S1x288.Idx → Elt F .f32)
    (L : List (View.Piece (Elt F) S1x288 .f32)) : m.view.read (Elt F) (m.view.writes (Elt F) f (⟨row, w⟩ :: L)) = w :=
  read_unit0 m.view f hz2 _ w L

/-- One trip writes its chunk's slab and, over each accumulator row, that row's step from what the row held. -/
theorem tripL_eq (k : Fin k0_t1_loop.trips) :
    tripL_k0_t1 (F := F) .none c none i arg1 harg1 arg2 harg2 arg3 harg3 arg4 harg4 arg5 harg5 arg6 harg6 arg7 harg7 arg8 harg8 arg9 harg9 arg10 harg10 arg11 harg11 f3 f4 f5 k f6 f9 f10 f11 =
      ([⟨chunkRect k, reconChunk (rd arg3 f3) (rd arg4 f4) k⟩],
       [⟨row, cStep (rd arg3 f3) (rd arg4 f4) k (View.ld (rd arg9 f9) row)⟩],
       [⟨row, pStep (rd arg3 f3) (rd arg4 f4) k (View.ld (rd arg10 f10) row)⟩],
       [⟨row, nStep (rd arg3 f3) (rd arg5 f5) k (View.ld (rd arg11 f11) row)⟩]) := by
  unfold tripL_k0_t1 trip_k0_t1
  dsimp only
  sl_unfold_run_names
  unfold reconChunk cStep pStep nStep
  rfl

/-- The two trips leave both slabs in the reconstruction block and step each accumulator row twice from its entry value. -/
theorem pb_two :
    pb_k0_t1 (F := F) .none c none i arg1 harg1 arg2 harg2 arg3 harg3 arg4 harg4 arg5 harg5 arg6 harg6 arg7 harg7 arg8 harg8 arg9 harg9 arg10 harg10 arg11 harg11 f3 f4 f5 f6 f9 f10 f11 2 =
      (slabs (rd arg3 f3) (rd arg4 f4), two (cStep (rd arg3 f3) (rd arg4 f4)) (rd arg9 f9),
       two (pStep (rd arg3 f3) (rd arg4 f4)) (rd arg10 f10), two (nStep (rd arg3 f3) (rd arg5 f5)) (rd arg11 f11)) := by
  rw [pb_k0_t1_succ (k := trip1), pb_k0_t1_succ (k := trip0), pb_k0_t1.eq_1, tripL_eq, tripL_eq]
  simp only [View.writes_nil, List.append_nil, List.nil_append, List.cons_append, ld_row, read_row]

set_option maxHeartbeats 4000000 in
/-- The pieces the stores leave in each output block, found by running the body from the contents it is handed. -/
@[irreducible] def kernelRun : Σ' (L6 : List (View.Piece (Elt F) S1x8x256x288 .f32)) (L7 : List (View.Piece (Elt F) S1x1x288 .f32)),
    { L8 : List (View.Piece (Elt F) S1x1x288 .f32) // ∀ (E : Set ℕ) (K : PUnit → sProp 𝕄),
      iprop(pts c arg3 f3 ∗ pts c arg4 f4 ∗ pts c arg5 f5 ∗ pts c arg6 f6 ∗ pts c arg7 f7 ∗ pts c arg8 f8 ∗ pts c arg9 f9 ∗ pts c arg10 f10 ∗ pts c arg11 f11
          ∗ ((pts c arg3 f3 ∗ pts c arg4 f4 ∗ pts c arg5 f5 ∗ pts c arg6 (arg6.view.writes (Elt F) f6 L6) ∗ pts c arg7 (arg7.view.writes (Elt F) f7 L7)
              ∗ pts c arg8 (arg8.view.writes (Elt F) f8 L8) ∗ (∃ d, pts c arg9 d) ∗ (∃ d, pts c arg10 d) ∗ (∃ d, pts c arg11 d)) -∗ K ⟨⟩))
        ⊢ wp frame (wpE (defs₀ (F := F)) Variants.none c none) E (cc0__cm_attn_kernel i arg1 harg1 arg2 harg2 arg3 harg3 arg4 harg4 arg5 harg5 arg6 harg6 arg7 harg7 arg8 harg8 arg9 harg9 arg10 harg10 arg11 harg11) K } :=
  ⟨_, _, _, fun E K => by
    simp only [cc0__cm_attn_kernel_eq_skeleton]; unfold cc0__cm_attn_kernel_skel
    simp only [k0_part4_eq_skeleton]
    iintro ⟨H3, H4, H5, H6, H7, H8, H9, H10, H11, Hk⟩
    sl_exec
    sl_step
    iapply Hk
    sl_close⟩

theorem trips_two : Scf.trips k0_t1_loop.lb k0_t1_loop.ub k0_t1_loop.st = 2 := by decide

/-- Read back, the three output blocks are the block functions of what the input blocks read. -/
theorem reads :
    arg6.view.read (Elt F) (arg6.view.writes (Elt F) f6 (kernelRun c i arg1 harg1 arg2 harg2 arg3 harg3 arg4 harg4 arg5 harg5 arg6 harg6 arg7 harg7 arg8 harg8 arg9 harg9 arg10 harg10 arg11 harg11 f3 f4 f5 f6 f7 f8 f9 f10 f11).1) = reconBlk (rd arg3 f3) (rd arg4 f4)
    ∧ arg7.view.read (Elt F) (arg7.view.writes (Elt F) f7 (kernelRun c i arg1 harg1 arg2 harg2 arg3 harg3 arg4 harg4 arg5 harg5 arg6 harg6 arg7 harg7 arg8 harg8 arg9 harg9 arg10 harg10 arg11 harg11 f3 f4 f5 f6 f7 f8 f9 f10 f11).2.1) = comaskBlk (rd arg3 f3) (rd arg4 f4)
    ∧ arg8.view.read (Elt F) (arg8.view.writes (Elt F) f8 (kernelRun c i arg1 harg1 arg2 harg2 arg3 harg3 arg4 harg4 arg5 harg5 arg6 harg6 arg7 harg7 arg8 harg8 arg9 harg9 arg10 harg10 arg11 harg11 f3 f4 f5 f6 f7 f8 f9 f10 f11).2.2.1) = tripBlk (rd arg3 f3) (rd arg4 f4) (rd arg5 f5) := by
  unfold kernelRun
  dsimp only
  refine ⟨?_, ?_, ?_⟩
  · rw [show Scf.trips (0#32) (Scalar.addi 0#32 2#32) 1#32 = 2 from trips_two, pb_two]
    exact View.read_writes_eq_canon _ _ _ (View.cover_of_tiledL _ S1x4x256x288.size (by sl_kernel_rfl))
  all_goals
    rw [read_unit0 (Val := Elt F) _ _ hz3]
    sl_unfold_run_names
    rw [trips_two, pb_two]
    dsimp only
    simp only [two, rd, List.cons_append, List.nil_append]
  · rw [View.readAt_eq_ld, ld_row, read_row arg9, read_row arg9]
    rfl
  · rw [View.readAt_eq_ld, ld_row, View.readAt_eq_ld, ld_row, read_row arg10, read_row arg10, read_row arg11, read_row arg11]
    rfl

/-- The body's triple: from the three input blocks it fills the three output blocks with their block functions. -/
theorem body_run (xq xp xn : Vec F S1x8x256x288 .f32) (E : Set ℕ) (K : PUnit → sProp 𝕄) :
    iprop(owns (c : Thread nD τ) arg3 fullShare xq ∗ owns (c : Thread nD τ) arg4 fullShare xp ∗ owns (c : Thread nD τ) arg5 fullShare xn
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare xq ∗ owns (c : Thread nD τ) arg4 fullShare xp ∗ owns (c : Thread nD τ) arg5 fullShare xn
            ∗ owns (c : Thread nD τ) arg6 fullShare (reconBlk xq xp) ∗ owns (c : Thread nD τ) arg7 fullShare (comaskBlk xq xp)
            ∗ owns (c : Thread nD τ) arg8 fullShare (tripBlk xq xp xn)
            ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0__cm_attn_kernel i arg1 harg1 arg2 harg2 arg3 harg3 arg4 harg4 arg5 harg5 arg6 harg6 arg7 harg7 arg8 harg8 arg9 harg9 arg10 harg10 arg11 harg11) K := by
  unfold owns
  iintro ⟨⟨%f3, %h3, H3⟩, ⟨%f4, %h4, H4⟩, ⟨%f5, %h5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  subst h3 h4 h5
  obtain ⟨h6, h7, h8⟩ := reads c i arg1 harg1 arg2 harg2 arg3 harg3 arg4 harg4 arg5 harg5 arg6 harg6 arg7 harg7 arg8 harg8 arg9 harg9 arg10 harg10 arg11 harg11 f3 f4 f5 f6 f7 f8 f9 f10 f11
  rw [← h6, ← h7, ← h8]
  iapply (kernelRun c i arg1 harg1 arg2 harg2 arg3 harg3 arg4 harg4 arg5 harg5 arg6 harg6 arg7 harg7 arg8 harg8 arg9 harg9 arg10 harg10 arg11 harg11 f3 f4 f5 f6 f7 f8 f9 f10 f11).2.2.2 E K
  iframe
  iintro ⟨H3, H4, H5, H6, H7, H8, ⟨%g9, H9⟩, ⟨%g10, H10⟩, ⟨%g11, H11⟩⟩
  iapply Hk
  sl_close

end Cert.Kernel.Hand

end
-- ==== Proof.KFrame.lean ====
import proofs.«429718_j54400055771394_3_alg».proof.Proof.KFrameDefs
import proofs.«429718_j54400055771394_3_alg».proof.Proof.KBody
import Idealize.ShloMosaic.Lib.Pipeline.FrameBody

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem V_pre (c : Dev nD) (j : Fin 2) : V m c (pre0.ref j) = tbl m j := by
  obtain rfl : c = 0 := Subsingleton.elim _ _; rfl

/-- Neither of the two earlier operations writes an argument. -/
theorem V_arg (c : Dev nD) {b : Ref sig .tc} (hb : b = main_arg0 ∨ b = main_arg1 ∨ b = main_arg2 ∨ b = main_arg3) :
    V m c b = m ((c : Thread nD τ).loc b) := by
  rcases hb with rfl | rfl | rfl | rfl <;>
  (show StableHlo.after hostOps0 (fun b => m (c, b)) (Proc.devRef .tc _) = _; after_results)

/-- What the body finds in an input window is that window's block of the array. -/
theorem before_in (hO : Ok m) (c : Dev nD) (t : Fin (cfgM m hO).N) {w : Fin 6} (hw : w = 0 ∨ w = 1 ∨ w = 2) (d) :
    (dats m hO 0 c).before w t d = iblk m hO c w t := by
  rcases hw with rfl | rfl | rfl <;>
  exact ((dats m hO 0 c).before_in_eq_fetched _ rfl (fun _ => rfl) (fun _ _ _ => rfl) (fun _ => rfl) t d).trans rfl

/-- The body keeps the three input blocks and leaves `reconBlk`, `comaskBlk`, `tripBlk` of them in the outputs. -/
theorem body_obligation (hO : Ok m) (c : Dev nD) : BodyObligation (dats (F := F) m hO 0 c) (defs₀ (F := F)) Variants.none () Set.univ := fun t => by
  show (iprop(iprop(Pipeline.ΦA spec0 c ∗ ?T) ∗ ?O ∗ bigSep Finset.univ fun w => iprop(∃ d, owns _ _ fullShare ((dats m hO 0 c).before w t d))) : sProp 𝕄)
    ⊢ wp frame _ _ _ fun _ => iprop(iprop(Pipeline.ΦA spec0 c ∗ ?T) ∗ ?O ∗ bigSep Finset.univ fun w => owns _ _ fullShare ((dats m hO 0 c).after w t))
  unfold Pipeline.ΦA
  rw [bigSep_W0, bigSep_W0, scopedRest0_eq]
  iintro ⟨⟨⟨⟨Hs0, Hs1, Hs2⟩, Hr⟩, HT⟩, Ho, ⟨%d0, H0⟩, ⟨%d1, H1⟩, ⟨%d2, H2⟩, ⟨%d3, H3⟩, ⟨%d4, H4⟩, ⟨%d5, H5⟩⟩
  rw [before_in m hO c t (.inl rfl), before_in m hO c t (.inr (.inl rfl)), before_in m hO c t (.inr (.inr rfl))]
  iapply (body_run c _ _ _ _ _ _ _ _ _ _ _ _ _ _ _ _ _ _ _ _ _ _ _ (qblk m hO c t) (pblk m hO c t) (nblk m hO c t) Set.univ _)
  simp only [owns_whole]
  iframe
  isplitl [H3]; · iexists _; iexact H3
  isplitl [H4]; · iexists _; iexact H4
  isplitl [H5]; · iexists _; iexact H5
  iintro ⟨H0, H1, H2, H3, H4, H5, Hs⟩
  dsimp only [dats]
  iframe

/-- `arrays` written out over the six windows. -/
theorem arrays_chain (hO : Ok m) (c : Dev nD)
    (Fv : (w : Fin (cfgM m hO).W) → Buf (Elt F) (((cfgM m hO).win w).arr.view.loc (c : Thread nD τ))) :
    (dats m hO 0 c).arrays Fv
      = iprop((((c : Thread nD τ).loc main_v1) ↦{fullShare.left} Fv 0) ∗ (((c : Thread nD τ).loc main_v1) ↦{fullShare.right.left} Fv 1)
          ∗ (((c : Thread nD τ).loc main_v1) ↦{fullShare.right.right} Fv 2) ∗ (((c : Thread nD τ).loc main_v2_0) ↦{fullShare} Fv 3)
          ∗ (((c : Thread nD τ).loc main_v2_1) ↦{fullShare} Fv 4) ∗ (((c : Thread nD τ).loc main_v2_2) ↦{fullShare} Fv 5)) := by
  unfold Dat.arrays
  rw [bigSep_congr fun w _ => by rw [(arr_whole0 w).set_eq_univ], bigSep_W0]
  rfl

/-- `V0` updated at the three result arrays with their final contents. -/
def exitV (hO : Ok m) (c : Dev nD) : Valuation τ sig (Elt F) :=
  Function.update (Function.update (Function.update (V0 m c) (Proc.devRef .tc main_v2_0) (arrRecon m hO c))
    (Proc.devRef .tc main_v2_1) (arrComask m hO c)) (Proc.devRef .tc main_v2_2) (arrTrip m hO c)

theorem exitV_out (hO : Ok m) (c : Dev nD) : exitV m hO c (Proc.devRef .tc main_v2_0) = arrRecon m hO c
    ∧ exitV m hO c (Proc.devRef .tc main_v2_1) = arrComask m hO c ∧ exitV m hO c (Proc.devRef .tc main_v2_2) = arrTrip m hO c := by
  unfold exitV
  refine ⟨?_, ?_, ?_⟩ <;>
  simp (disch := exact StableHlo.devRef_ne_of_ne (by decide)) only [Function.update_self, Function.update_of_ne]

abbrev outL : List (Ref sig .tc) := [main_v2_0, main_v2_1, main_v2_2]

/-- Away from the result arrays `exitV` is `V`. -/
theorem exitV_of_ne (hO : Ok m) (c : Dev nD) (b : Ref sig .tc) (hb : b ∉ outL) : exitV m hO c (Proc.devRef .tc b) = V m c b := by
  simp only [outL, List.mem_cons, List.mem_nil_iff, or_false, not_or] at hb
  unfold exitV
  rw [Function.update_of_ne (StableHlo.devRef_ne_of_ne hb.2.2), Function.update_of_ne (StableHlo.devRef_ne_of_ne hb.2.1),
    Function.update_of_ne (StableHlo.devRef_ne_of_ne hb.1)]

/-- The result arrays together with the buffers that are neither a window's array nor a table. -/
abbrev tailS : Finset (DevRef τ sig) :=
  (outL.toFinset ∪ Pipeline.restRefsP sig pre0 spec0).map ⟨Proc.devRef (sig := sig) (.tc : Proc τ), Proc.devRef_injective _⟩

/-- `held` over that set: the three result arrays, and the rest at any `X` equal to `W` there. -/
theorem held_tailS (c : Dev nD) (W : Valuation τ sig (Elt F)) (X : (b : Ref sig .tc) → Buf (Elt F) ((c : Thread nD τ).loc b))
    (hX : ∀ b ∈ Pipeline.restRefsP sig pre0 spec0, W (Proc.devRef .tc b) = X b) :
    (StableHlo.held (c : Thread nD τ) tailS W : sProp 𝕄)
      = iprop(iprop((((c : Thread nD τ).loc main_v2_0) ↦{fullShare} W (Proc.devRef .tc main_v2_0))
          ∗ (((c : Thread nD τ).loc main_v2_1) ↦{fullShare} W (Proc.devRef .tc main_v2_1))
          ∗ (((c : Thread nD τ).loc main_v2_2) ↦{fullShare} W (Proc.devRef .tc main_v2_2)))
        ∗ Pipeline.unscopedRestP pre0 spec0 c X) := by
  unfold StableHlo.held tailS Pipeline.unscopedRestP
  rw [bigSep_map, bigSep_union (by decide), bigSep_eq_bigSepL outL (by decide)]
  exact congrArg _ (bigSep_congr fun b hb => by rw [← hX b hb]; rfl)

/-- Each buffer after the twelve later operations. -/
def finV (hO : Ok m) (c : Dev nD) (b : Ref sig .tc) : Buf (Elt F) ((c : Thread nD τ).loc b) :=
  StableHlo.after hostOps1 (exitV m hO c) (Proc.devRef .tc b)

/-- None of the twelve later operations writes a result array. -/
theorem after_out (hO : Ok m) (c : Dev nD) {b : Ref sig .tc} (hb : b = main_v2_0 ∨ b = main_v2_1 ∨ b = main_v2_2) :
    StableHlo.after hostOps1 (exitV m hO c) (Proc.devRef .tc b) = exitV m hO c (Proc.devRef .tc b) := by
  rcases hb with rfl | rfl | rfl <;> after_results

/-- Each later operation touches only buffers of `tailS` and allocates none. -/
theorem tail_ok : ∀ ops ∈ ([hostOps1] : List (List (HloOp τ sig (Elt F)))), ∀ op ∈ ops, op.bufs ⊆ tailS ∧ op.fresh = ∅ := by
  intro ops hops op hop
  obtain rfl := List.mem_singleton.mp hops
  simp only [hostOps1, List.mem_cons, List.mem_nil_iff, or_false] at hop
  rcases hop with rfl | rfl | rfl | rfl | rfl | rfl | rfl | rfl | rfl | rfl | rfl | rfl <;>
  refine ⟨?_, rfl⟩ <;>
  simp only [StableHlo.nullary_bufs, StableHlo.binary_bufs, StableHlo.reshape_bufs, Finset.insert_subset_iff, Finset.singleton_subset_iff] <;>
  (try refine ⟨?_, ?_, ?_⟩) <;> (try refine ⟨?_, ?_⟩) <;>
  exact Finset.mem_map_of_mem _ (by decide)

theorem hsplit (hO : Ok m) (c : Dev nD) :
    (Pipeline.arrBufs spec0 c (V m c) : sProp 𝕄) ⊢ (dats m hO 0 c).arrays ((dats m hO 0 c).arrAt · 0) := by
  unfold Pipeline.arrBufs
  rw [bigSep_eq_bigSepL_of_eq [main_v1, main_v2_0, main_v2_1, main_v2_2] (by decide) (by decide), arrays_chain]
  show iprop(_ ∗ _ ∗ _ ∗ (((c : Thread nD τ).loc main_v2_2) ↦{fullShare} _)) ⊢ _
  iintro ⟨H1, H3, H4, H5⟩
  ihave H1 := (pointsTo_share (PosShare.mem_left_op_right fullShare)).1 $$ H1
  icases H1 with ⟨Hl, Hr⟩
  ihave Hr := (pointsTo_share (PosShare.mem_left_op_right fullShare.right)).1 $$ Hr
  icases Hr with ⟨Hrl, Hrr⟩
  isplitl [Hl]; · iexact Hl
  isplitl [Hrl]; · iexact Hrl
  isplitl [Hrr]; · iexact Hrr
  isplitl [H3]; · iexact H3
  isplitl [H4]; · iexact H4
  iexact H5

theorem fin_v3 (hO : Ok m) (c : Dev nD) : finV m hO c main_v3 = outRecon m hO c := by
  unfold finV outRecon
  after_results
  rw [(exitV_out m hO c).1]
  rfl

theorem fin_v10 (hO : Ok m) (c : Dev nD) : finV m hO c main_v10 = outLoss m hO c := by
  unfold finV outLoss
  after_results
  rw [(exitV_out m hO c).2.1, (exitV_out m hO c).2.2]
  rfl

theorem fin_arg (hO : Ok m) (c : Dev nD) {b : Ref sig .tc} (hb : b = main_arg0 ∨ b = main_arg1) :
    finV m hO c b = m ((c : Thread nD τ).loc b) := by
  unfold finV
  rcases hb with rfl | rfl <;> after_results <;> rw [exitV_of_ne m hO c _ (by decide), V_arg m c (by decide)]

set_option backward.isDefEq.respectTransparency.types false in
theorem run_main (hO : Ok m) :
    θ_run defs (onTc (τ := τ) (main (F := F))) ⟨m, fun _ => 0, ρ⟩ (fun r => ∀ c : Dev nD,
      r.2.mem ((c.tc : Thread nD τ).loc main_v3) = outRecon m hO c
      ∧ r.2.mem ((c.tc : Thread nD τ).loc main_v10) = outLoss m hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  classical
  have hinj := cellOf_inj fun _ => adm m hO
  exact Pipeline.θ_run_region_pf_tail pcfgs (fun _ => adm m hO) (dats m hO) () hinj (0 : Fin 1)
    winFacts₀0 (Pipeline.OwnSemFacts.none spec0) preFacts0 emb₁ defs₀ Variants.none m ρ main
    (fun _ => Pipeline.chain [StableHlo.seq hostOps1]) (fun c => (body_obligation m hO c).loose)
    block_pos0 arr_whole0 stage_whole0 (fun _ _ => rfl)
    (G := fun _ => iprop(emp))
    (u₀ := initOf (Pipeline.cells _ hinj) (Pipeline.launchToks _ hinj))
    (hu₀ := by
      iintro Hu; imodintro
      isplitl [Hu]
      · iapply (show (ownU _ : sProp 𝕄) ⊢ BI.own (emb₁ (initOf (Pipeline.cells _ hinj) (Pipeline.launchToks _ hinj))) from .rfl)
        iexact Hu
      iapply (show (BI.emp : sProp 𝕄) ⊢ bigSep Finset.univ (fun _ : Dev nD => (BI.emp : sProp 𝕄)) from by rw [BI.bigSep_emp_const])
      iempintro)
    (V := V m)
    (hmain := Pipeline.hmainP_around pcfgs 0 defs₀ Variants.none m main [hostOps0] [hostOps1] hostOps0_sub
      (by simp only [List.Forall]; repeat' constructor) main_chain)
    (hsplit := hsplit m hO)
    (hpf := V_pre m)
    (X := fun c => iprop(∃ r, prngReg c r)) (Y := fun c => iprop(∃ r, prngReg c r))
    (Z := fun c => Pipeline.unscopedRestP pre0 spec0 c (V m c))
    (Z' := fun c => Pipeline.unscopedRestP pre0 spec0 c (finV m hO c))
    (hX := fun c => by
      iintro ⟨HU, -, -, -, Hp, -⟩; imodintro
      iframe HU; iexists _; iexact Hp)
    (hin := fun c => by
      show _ ⊢ iprop(Pipeline.ΦA spec0 c ∗ Pipeline.ΦT pre0 (tbl m) c)
      unfold Pipeline.ΦA Pipeline.ΦT; iintro ⟨Hp, Ht, Hr⟩; iframe)
    (hout := fun c => by
      show iprop(Pipeline.ΦA spec0 c ∗ Pipeline.ΦT pre0 (tbl m) c) ⊢ _
      rw [Pipeline.ownSems0_none]; unfold Pipeline.ΦA
      iintro ⟨⟨Hr, Hp⟩, -⟩; iframe; iempintro)
    (htail := fun c Q' => by
      have hw := Pipeline.wp_seqs_then pcfgs defs₀ Variants.none c tailS [] [hostOps1] (fun o h p q => (tail_ok o h p q).1)
        (fun o h p q => (tail_ok o h p q).2) (exitV m hO c) (K := Q')
      rw [List.flatten_cons, List.flatten_nil, List.append_nil, Pipeline.chain_nil, wp_pure,
        held_tailS c (exitV m hO c) (V m c) fun b hb => exitV_of_ne m hO c b (by revert b; decide),
        held_tailS c (StableHlo.after hostOps1 (exitV m hO c)) (finV m hO c) fun _ _ => rfl,
        after_out m hO c (.inl rfl), after_out m hO c (.inr (.inl rfl)), after_out m hO c (.inr (.inr rfl)),
        (exitV_out m hO c).1, (exitV_out m hO c).2.1, (exitV_out m hO c).2.2] at hw
      rw [arrays_chain]
      iintro ⟨Hk, Hb, ⟨A0, A1, A2, O3, O4, O5⟩, HZ⟩
      iapply hw $$ [Hb O3 O4 O5 HZ]
      · iframe
      iintro ⟨Hb, Hh⟩
      imodintro
      iapply Hk
      iframe)
    (QY := fun c s => ∀ b ∈ Pipeline.restRefsP sig pre0 spec0, s.mem ((c.tc : Thread nD τ).loc b) = finV m hO c b)
    (hY := fun c s' => by
      iintro ⟨-, HU, HSI⟩
      unfold Pipeline.unscopedRestP
      imodintro
      iapply (pointsTo_read_all (Pipeline.restRefsP sig pre0 spec0) (fun b => (c.tc : Thread nD τ).loc b) (finV m hO c) s')
      iframe)
    (hQ := fun s h c =>
      ⟨((h c).2.2 main_v3 (by decide)).trans (fin_v3 m hO c),
       ((h c).2.2 main_v10 (by decide)).trans (fin_v10 m hO c),
       ((h c).2.2 main_arg0 (by decide)).trans (fin_arg m hO c (.inl rfl)),
       ((h c).2.2 main_arg1 (by decide)).trans (fin_arg m hO c (.inr rfl)),
       ((h c).2.1 0).trans ((V_pre m c 0).symm.trans (V_arg m c (.inr (.inr (.inl rfl))))),
       ((h c).2.1 1).trans ((V_pre m c 1).symm.trans (V_arg m c (.inr (.inr (.inr rfl)))))⟩)

end Cert.Kernel.Hand

end
-- ==== Proof.Spec.lean ====
import Idealize.ShloMosaic.PureOps.Ideal

noncomputable section

namespace Cert.Spec

open Idealize.ShloMosaic

abbrev eps12 : EReal := Ideal.ofBits .f32 0x2B8CBCCC#32
abbrev eps6 : EReal := Ideal.ofBits .f32 0x358637BD#32
abbrev c50 : EReal := Ideal.ofBits .f32 0x42480000#32
abbrev c1 : EReal := Ideal.ofBits .f32 0x3F800000#32
abbrev c0 : EReal := Ideal.ofBits .f32 0x00000000#32
abbrev cmargin : EReal := Ideal.ofBits .f32 0x3E99999A#32
abbrev cdenom : EReal := Ideal.ofBits .f32 0x49900000#32
abbrev pinf : EReal := Ideal.ofBits .f32 0x7F800000#32
abbrev ninf : EReal := Ideal.ofBits .f32 0xFF800000#32

abbrev Head : Type := Fin 256 → Fin 288 → EReal

abbrev Feat : Type := Fin 64 → Fin 8 → Fin 256 → Fin 288 → EReal

abbrev Row : Type := Fin 288 → EReal

def sq (a : EReal) : EReal := a * a

/-- Euclidean norm of column `s` of a head. -/
def nrm (Q : Head) : Row := fun s => Ideal.sqrt (∑ d : Fin 256, Q d s * Q d s)

def vmin (v : Row) : EReal := (Finset.univ : Finset (Fin 288)).fold min pinf v
def vmax (v : Row) : EReal := (Finset.univ : Finset (Fin 288)).fold max ninf v

/-- Min–max normalisation with the denominator `(max − min) + ε`. -/
def mmK (v : Row) : Row := fun s => Ideal.div (v s - vmin v) ((vmax v - vmin v) + eps12)

/-- Min–max normalisation with the maximum taken of the shifted row. -/
def mmR (v : Row) : Row := fun s => Ideal.div (v s - vmin v) (vmax (fun s' => v s' - vmin v) + eps12)

def unit (Q : Head) (d : Fin 256) (s : Fin 288) : EReal := Ideal.div (Q d s) (max (nrm Q s) eps12)

def sim (Q K : Head) (s t : Fin 288) : EReal := (∑ d : Fin 256, unit Q d s * unit K d t) * c50

/-- Row softmax, shifted by the row maximum, of fifty times the cosine similarities. -/
def attn (Q K : Head) (s t : Fin 288) : EReal :=
  Ideal.div (Ideal.exp (sim Q K s t - vmax (sim Q K s))) (∑ t' : Fin 288, Ideal.exp (sim Q K s t' - vmax (sim Q K s)))

def warp (Q K : Head) (d : Fin 256) (s : Fin 288) : EReal := ∑ t : Fin 288, K d t * attn Q K s t

/-- Blend of the warped partner and the head itself by the mask. -/
def reconH (mm : Row → Row) (Q K : Head) (d : Fin 256) (s : Fin 288) : EReal :=
  mm (nrm Q) s * warp Q K d s + (c1 - mm (nrm Q) s) * Q d s

def chead (mm : Row → Row) (Q K : Head) (s : Fin 288) : EReal :=
  mm (nrm Q) s * (∑ t : Fin 288, attn Q K s t * mm (nrm K) t)

def comask (mm : Row → Row) (X : Feat) (p : Fin 64 → Fin 64) (b : Fin 64) : Row :=
  mm (fun s => Ideal.sqrt (∑ h : Fin 8, sq (chead mm (X b h) (X (p b) h) s)))

/-- Distance to the reconstruction in the factored form `mask · (Q − warp) + ε`. -/
def distK (X : Feat) (p : Fin 64 → Fin 64) (b : Fin 64) : Row := fun s =>
  Ideal.sqrt (∑ h : Fin 8, ∑ d : Fin 256,
    sq (mmK (nrm (X b h)) s * (X b h d s - warp (X b h) (X (p b) h) d s) + eps6))

/-- The same distance as `Q − recon + ε`. -/
def distR (X : Feat) (p : Fin 64 → Fin 64) (b : Fin 64) : Row := fun s =>
  Ideal.sqrt (∑ h : Fin 8, ∑ d : Fin 256,
    sq (X b h d s - reconH mmR (X b h) (X (p b) h) d s + eps6))

def tripK (X : Feat) (p n : Fin 64 → Fin 64) (b : Fin 64) : Row := fun s =>
  max (distK X p b s - distK X n b s + cmargin) c0
def tripR (X : Feat) (p n : Fin 64 → Fin 64) (b : Fin 64) : Row := fun s =>
  max (distR X p b s - distR X n b s + cmargin) c0

/-- Per position, the sum of masks times the sum of triplet terms. -/
def lossK (X : Feat) (p n : Fin 64 → Fin 64) : EReal :=
  Ideal.div (∑ s : Fin 288, (∑ b : Fin 64, comask mmK X p b s) * (∑ b : Fin 64, tripK X p n b s)) cdenom

/-- Mean of the outer product of masks and triplet terms over pairs of samples. -/
def lossR (X : Feat) (p n : Fin 64 → Fin 64) : EReal :=
  Ideal.div (∑ b : Fin 64, ∑ b' : Fin 64, ∑ s : Fin 288, comask mmR X p b s * tripR X p n b' s) cdenom

def IsReal (X : Feat) : Prop := ∀ b h d s, ∃ r : ℝ, X b h d s = (r : EReal)

end Cert.Spec

end
-- ==== Proof.Glue.lean ====
import proofs.«429718_j54400055771394_3_alg».proof.Proof.Spec
import Idealize.ShloMosaic.Lib.ValueIdx

noncomputable section

namespace Cert.Glue

open Idealize.ShloMosaic Idealize.ShloMosaic.ValueIdx Cert.Spec

abbrev SIn : Shape := ⟨4, ![32, 2048, 24, 12]⟩
abbrev SOut : Shape := ⟨4, ![64, 2048, 24, 12]⟩
abbrev STab : Shape := ⟨1, ![64]⟩

/-- Sample `b` is row `b` of the first argument below 32, row `b − 32` of the second above; channel `256 h + d`; cell `(s / 12, s % 12)`. -/
def featOf (x0 x1 : Vec Ideal SIn .f32) : Feat := fun b h d s =>
  if hb : b.val < 32 then
    x0 (ix4 (⟨b.val, hb⟩ : Fin 32) (⟨h.val * 256 + d.val, by have := h.isLt; have := d.isLt; omega⟩ : Fin 2048)
      (⟨s.val / 12, by have := s.isLt; omega⟩ : Fin 24) (⟨s.val % 12, Nat.mod_lt _ (by decide)⟩ : Fin 12))
  else
    x1 (ix4 (⟨b.val - 32, by have := b.isLt; omega⟩ : Fin 32) (⟨h.val * 256 + d.val, by have := h.isLt; have := d.isLt; omega⟩ : Fin 2048)
      (⟨s.val / 12, by have := s.isLt; omega⟩ : Fin 24) (⟨s.val % 12, Nat.mod_lt _ (by decide)⟩ : Fin 12))

/-- The sample a table's word names. -/
def idxOf (p : IVec STab 32) : Fin 64 → Fin 64 := fun b => ⟨(p (ix1 b)).toNat % 64, Nat.mod_lt _ (by decide)⟩

/-- The reconstruction laid out as sample × channel × row × column. -/
def reconOut (mm : Row → Row) (X : Feat) (p : Fin 64 → Fin 64) : Vec Ideal SOut .f32 := fun i =>
  reconH mm (X ⟨(i 0).val, (i 0).isLt⟩ ⟨(i 1).val / 256, by have : (i 1).val < 2048 := (i 1).isLt; omega⟩)
    (X (p ⟨(i 0).val, (i 0).isLt⟩) ⟨(i 1).val / 256, by have : (i 1).val < 2048 := (i 1).isLt; omega⟩)
    ⟨(i 1).val % 256, Nat.mod_lt _ (by decide)⟩
    ⟨(i 2).val * 12 + (i 3).val, by have : (i 2).val < 24 := (i 2).isLt; have : (i 3).val < 12 := (i 3).isLt; omega⟩

def blkOf (X : Feat) (b : Fin 64) : Vec Ideal (⟨4, ![1, 8, 256, 288]⟩ : Shape) .f32 := fun j =>
  X b ⟨(j 1).val, (j 1).isLt⟩ ⟨(j 2).val, (j 2).isLt⟩ ⟨(j 3).val, (j 3).isLt⟩

def InRange (p : IVec STab 32) : Prop := ∀ b : Fin 64, (p (ix1 b)).toNat < 64

end Cert.Glue

end
-- ==== Proof.OkOfRange.lean ====
import proofs.«429718_j54400055771394_3_alg».proof.Proof.FrameDefs
import proofs.«429718_j54400055771394_3_alg».proof.Proof.Glue

noncomputable section

namespace Cert.KernelIdeal.Hand

open Idealize.ShloMosaic Idealize.ShloMosaic.TcCoe Idealize.SL.Sem Cert.KernelIdeal Cert.KernelIdeal.Gen Cert.Glue

variable {F : FTy → Type} [FloatOps F]

/-- A table equal to one in range has a word below 64 at every index, an index of a vector being its one coordinate. -/
theorem word_lt {p q : IVec STab 32} (e : p = q) (hq : InRange q) (x : STab.Idx) : (p x).toNat < 64 := by
  rw [e, ValueIdx.eq_ix1 x]
  exact hq (x 0)

/-- The block at sample `n < 64`, all heads, features and positions, lies inside the array of 64 samples. -/
theorem block_inside (v : Fin 4 → Nat) (n : Nat) (hn : n < 64) (e : v = ![n, 0, 0, 0]) (a : Fin 4) :
    (v a + 1) * S1x8x256x288.size a ≤ S64x8x256x288.size a := by
  subst e
  match a with
  | ⟨0, _⟩ => show (n + 1) * 1 ≤ 64; omega
  | ⟨1, _⟩ | ⟨2, _⟩ | ⟨3, _⟩ => exact Nat.le_refl _

theorem ok_of_range (m : (ℓ : Loc nD τ sig) → Buf (Elt F) ℓ)
    (h2 : ∀ c : Dev nD, InRange (m ((c.tc : Thread nD τ).loc main_arg2)))
    (h3 : ∀ c : Dev nD, InRange (m ((c.tc : Thread nD τ).loc main_arg3))) : Ok m := by
  have e : ∀ {b : Ref sig .tc}, b = main_arg2 ∨ b = main_arg3 →
      StableHlo.after (hostOps0 (F := F)) (fun b => m (0, b)) (Proc.devRef .tc b) = m (((0 : Dev nD).tc : Thread nD τ).loc b) := by
    rintro b (rfl | rfl) <;> after_results
  exact ⟨fun i => ⟨fun a => block_inside _ _ (word_lt (e (.inl rfl)) (h2 0) _) rfl a, Or.inl rfl⟩,
    fun i => ⟨fun a => block_inside _ _ (word_lt (e (.inr rfl)) (h3 0) _) rfl a, Or.inl rfl⟩⟩

end Cert.KernelIdeal.Hand

end
-- ==== Proof.KOkOfRange.lean ====
import proofs.«429718_j54400055771394_3_alg».proof.Proof.KFrameDefs
import proofs.«429718_j54400055771394_3_alg».proof.Proof.Glue

noncomputable section

namespace Cert.Kernel.Hand

open Idealize.ShloMosaic Idealize.ShloMosaic.TcCoe Idealize.SL.Sem Cert.Kernel Cert.Kernel.Gen Cert.Glue

variable {F : FTy → Type} [FloatOps F]

/-- A table equal to one in range has a word below 64 at every index, an index of a vector being its one coordinate. -/
theorem word_lt {p q : IVec STab 32} (e : p = q) (hq : InRange q) (x : STab.Idx) : (p x).toNat < 64 := by
  rw [e, ValueIdx.eq_ix1 x]
  exact hq (x 0)

/-- The block at sample `n < 64`, all heads, features and positions, lies inside the array of 64 samples. -/
theorem block_inside (v : Fin 4 → Nat) (n : Nat) (hn : n < 64) (e : v = ![n, 0, 0, 0]) (a : Fin 4) :
    (v a + 1) * S1x8x256x288.size a ≤ S64x8x256x288.size a := by
  subst e
  match a with
  | ⟨0, _⟩ => show (n + 1) * 1 ≤ 64; omega
  | ⟨1, _⟩ | ⟨2, _⟩ | ⟨3, _⟩ => exact Nat.le_refl _

theorem ok_of_range (m : (ℓ : Loc nD τ sig) → Buf (Elt F) ℓ)
    (h2 : ∀ c : Dev nD, InRange (m ((c.tc : Thread nD τ).loc main_arg2)))
    (h3 : ∀ c : Dev nD, InRange (m ((c.tc : Thread nD τ).loc main_arg3))) : Ok m := by
  have e : ∀ {b : Ref sig .tc}, b = main_arg2 ∨ b = main_arg3 →
      StableHlo.after (hostOps0 (F := F)) (fun b => m (0, b)) (Proc.devRef .tc b) = m (((0 : Dev nD).tc : Thread nD τ).loc b) := by
    rintro b (rfl | rfl) <;> after_results
  exact ⟨fun i => ⟨fun a => block_inside _ _ (word_lt (e (.inl rfl)) (h2 0) _) rfl a, Or.inl rfl⟩,
    fun i => ⟨fun a => block_inside _ _ (word_lt (e (.inr rfl)) (h3 0) _) rfl a, Or.inl rfl⟩⟩

end Cert.Kernel.Hand

end
-- ==== Proof.KVCore.lean ====
import proofs.«429718_j54400055771394_3_alg».proof.Proof.BodyDefs
import proofs.«429718_j54400055771394_3_alg».proof.Proof.Glue
import Idealize.ShloMosaic.Lib.ValueLayout
import Idealize.ShloMosaic.PureOps.Ideal.Laws

noncomputable section

namespace Cert.KernelIdeal.Hand.Core

open Idealize.ShloMosaic Idealize.ShloMosaic.ValueIdx Cert.KernelIdeal Cert.KernelIdeal.Gen Cert.Spec Cert.Glue
open Cert.KernelIdeal.Hand

section Layout
variable {α : Type} {a b c : ℕ}

/-- Two rank-3 indices with the same coordinates are equal. -/
theorem idx_ext₃ {n : Fin 3 → ℕ} {x y : (a : Fin 3) → Fin (n a)} (h0 : (x 0 : ℕ) = y 0) (h1 : (x 1 : ℕ) = y 1)
    (h2 : (x 2 : ℕ) = y 2) : x = y :=
  funext fun a => Fin.ext <| match a with | ⟨0, _⟩ => h0 | ⟨1, _⟩ => h1 | ⟨2, _⟩ => h2

/-- A broadcast reads a coordinate as it is, and as zero where the operand's extent is one. -/
theorem bcast_coord {n : ℕ} (i : Fin n) : i.val = if n = 1 then 0 else i.val := by
  split <;> omega

theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    rw [Fin.val_eq_zero, Nat.mul_one, Nat.add_zero])

theorem shapeCast_ab_a1b_apply (x : (⟨2, ![a, b]⟩ : Shape).Idx → α) (h : (⟨2, ![a, b]⟩ : Shape).ShapeCasts ⟨3, ![a, 1, b]⟩)
    (i : Fin a) (u : Fin 1) (j : Fin b) : shapeCast ⟨3, ![a, 1, b]⟩ x h (ix3 i u j) = x (ix2 i j) :=
  shapeCast_apply x h _ _ (by
    rw [Shape.rowMajor_val_three, Shape.rowMajor_val_two]
    show i.val * b + j.val = (i.val * 1 + u.val) * b + j.val
    rw [Fin.val_eq_zero, Nat.mul_one, Nat.add_zero])

theorem shapeCast_ab_ab1_apply (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    rw [Shape.rowMajor_val_three, Shape.rowMajor_val_two]
    show i.val * b + j.val = (i.val * b + j.val) * 1 + u.val
    rw [Fin.val_eq_zero, Nat.mul_one, Nat.add_zero])

theorem broadcastTo_a1_ab_apply (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) :=
  broadcastTo_apply v h _ (ix2 i (0 : Fin 1)) fun ax => match ax with
    | ⟨0, _⟩ => bcast_coord i
    | ⟨1, _⟩ => rfl

theorem broadcastTo_a1b_acb_apply (v : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ v h (ix3 i k j) = v (ix3 i (0 : Fin 1) j) :=
  broadcastTo_apply v h _ (ix3 i (0 : Fin 1) j) fun ax => match ax with
    | ⟨0, _⟩ => bcast_coord i
    | ⟨1, _⟩ => rfl
    | ⟨2, _⟩ => bcast_coord j

theorem broadcastTo_ab1_abc_apply (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) :=
  broadcastTo_apply v h _ (ix3 i j (0 : Fin 1)) fun ax => match ax with
    | ⟨0, _⟩ => bcast_coord i
    | ⟨1, _⟩ => bcast_coord j
    | ⟨2, _⟩ => rfl

/-- Row `k` of a matrix cut out as a one-row matrix. -/
theorem slice_row (o : ℕ) (x : (⟨2, ![a, b]⟩ : Shape).Idx → α) (h : (⟨2, ![a, b]⟩ : Shape).Slices ![o, 0] ⟨2, ![1, b]⟩)
    (k : Fin a) (hk : k.val = o) (u : Fin 1) (j : Fin b) :
    extractStridedSlice ⟨2, ![1, b]⟩ ![o, 0] x h (ix2 u j) = x (ix2 k j) :=
  slice2_axis0_apply o x h u j k (by omega)

end Layout

section Reduce
variable {a b c : ℕ}

theorem sum3_axis1_apply (src : FVec Ideal ⟨3, ![a, b, c]⟩ .f32) (h : (⟨3, ![a, b, c]⟩ : Shape).Reduces [1] ⟨2, ![a, c]⟩)
    (hφ : FKind.Formats .f32) (hacc : (0x00000000#32 : BitVec 32) = 0x00000000#32) (i : Fin a) (j : Fin c) :
    multiReduction .add [1] ⟨2, ![a, c]⟩ src 0x00000000#32 h hφ hacc (ix2 i j) = ∑ k : Fin b, src (ix3 i k j) :=
  (Ideal.multiReduction_add_single src _ h hφ hacc _).trans
    (Finset.sum_congr rfl fun k _ => congrArg src (idx_ext₃ rfl rfl rfl))

theorem sum3_axis2_apply (src : FVec Ideal ⟨3, ![a, b, c]⟩ .f32) (h : (⟨3, ![a, b, c]⟩ : Shape).Reduces [2] ⟨2, ![a, b]⟩)
    (hφ : FKind.Formats .f32) (hacc : (0x00000000#32 : BitVec 32) = 0x00000000#32) (i : Fin a) (j : Fin b) :
    multiReduction .add [2] ⟨2, ![a, b]⟩ src 0x00000000#32 h hφ hacc (ix2 i j) = ∑ k : Fin c, src (ix3 i j k) :=
  (Ideal.multiReduction_add_single src _ h hφ hacc _).trans
    (Finset.sum_congr rfl fun k _ => congrArg src (idx_ext₃ rfl rfl rfl))

theorem max3_axis2_apply (src : FVec Ideal ⟨3, ![a, b, 288]⟩ .f32) (h : (⟨3, ![a, b, 288]⟩ : Shape).Reduces [2] ⟨2, ![a, b]⟩)
    (hφ : FKind.Formats .f32) (hacc : (0xFF800000#32 : BitVec 32) = 0xFF800000#32) (i : Fin a) (j : Fin b) :
    multiReduction .maximumf [2] ⟨2, ![a, b]⟩ src 0xFF800000#32 h hφ hacc (ix2 i j) = vmax fun k => src (ix3 i j k) :=
  (Ideal.multiReduction_maximumf_single src _ h hφ hacc _).trans
    (congrArg (Finset.fold max _ · _) (funext fun k => congrArg src (idx_ext₃ rfl rfl rfl)))

theorem max2_axis1_apply (src : FVec Ideal ⟨2, ![a, 288]⟩ .f32) (h : (⟨2, ![a, 288]⟩ : Shape).Reduces [1] ⟨1, ![a]⟩)
    (hφ : FKind.Formats .f32) (hacc : (0xFF800000#32 : BitVec 32) = 0xFF800000#32) (i : Fin a) :
    multiReduction .maximumf [1] ⟨1, ![a]⟩ src 0xFF800000#32 h hφ hacc (ix1 i) = vmax fun k => src (ix2 i k) :=
  (Ideal.multiReduction_maximumf_single src _ h hφ hacc _).trans
    (congrArg (Finset.fold max _ · _) (funext fun k => congrArg src (Shape.idx_ext₂ rfl rfl)))

theorem min2_axis1_apply (src : FVec Ideal ⟨2, ![a, 288]⟩ .f32) (h : (⟨2, ![a, 288]⟩ : Shape).Reduces [1] ⟨1, ![a]⟩)
    (hφ : FKind.Formats .f32) (hacc : (0x7F800000#32 : BitVec 32) = 0x7F800000#32) (i : Fin a) :
    multiReduction .minimumf [1] ⟨1, ![a]⟩ src 0x7F800000#32 h hφ hacc (ix1 i) = vmin fun k => src (ix2 i k) :=
  ((multiReduction_minimumf_eq_fold src _ h hφ hacc _).trans (h.fold_filter_drop_single _ _ src _)).trans
    (congrArg (Finset.fold min _ · _) (funext fun k => congrArg src (Shape.idx_ext₂ rfl rfl)))

end Reduce

/-- Head `g` of a chunk slab: feature `d`, position `s`. -/
def headOf (v : Vec Ideal S1x4x256x288 .f32) (g : Fin 4) : Head := fun d s => v (ix4 (0 : Fin 1) g d s)

/-- Head `g` of chunk `k`, counted among the eight heads of the sample. -/
def hd (k : Fin k0_t1_loop.trips) (g : Fin 4) : Fin 8 := ⟨4 * k.val + g.val, by have : k.val < 2 := k.isLt; omega⟩

/-- Chunk `k`'s rectangle places head `g` of the slab at head `4 k + g` of the block. -/
theorem chunk_idx (k : Fin k0_t1_loop.trips) (g : Fin 4) (d : Fin 256) (s : Fin 288) :
    (chunkRect k).idx (ix4 (0 : Fin 1) g d s) = ix4 (0 : Fin 1) (hd k g) d s := by
  refine funext fun a => Fin.ext ?_
  show k0_off2 k a + 1 * (ix4 (0 : Fin 1) g d s a).val = (ix4 (0 : Fin 1) (hd k g) d s a).val
  rw [k0_off2_eq, Nat.one_mul]
  match a with
  | ⟨0, _⟩ | ⟨2, _⟩ | ⟨3, _⟩ => exact Nat.zero_add _
  | ⟨1, _⟩ => rfl

theorem headOf_chunk (X : Feat) (b : Fin 64) (k : Fin k0_t1_loop.trips) (g : Fin 4) :
    headOf (chunkOf (blkOf X b) k) g = X b (hd k g) :=
  funext fun d => funext fun s => congrArg (blkOf X b) (chunk_idx k g d s)

theorem exp_apply {s : Shape} (a : FVec Ideal s .f32) (i : s.Idx) : exp a i = Ideal.exp (a i) := rfl

variable (v vq vk : Vec Ideal S1x4x256x288 .f32) (g : Fin 4) (u : Fin 1) (d : Fin 256) (s t : Fin 288)

theorem pay2_apply : k0_pay2 v (ix3 g d s) = headOf v g d s := shapeCast_1abc_abc_apply v _ g d s
theorem pay3_apply : k0_pay3 v (ix3 g d s) = headOf v g d s := pay2_apply v g d s

theorem pay4_apply : k0_pay4 v (ix2 g s) = nrm (headOf v g) s :=
  congrArg Ideal.sqrt ((sum3_axis1_apply _ _ _ _ g s).trans (Finset.sum_congr rfl fun d _ => by rw [mulf_apply, pay2_apply]))
theorem pay5_apply : k0_pay5 v (ix2 g s) = nrm (headOf v g) s := pay4_apply v g s

/-- The min–max mask of the column norms. -/
theorem pay6_apply : k0_pay6 v (ix2 g s) = mmK (nrm (headOf v g)) s := by
  unfold k0_pay6
  simp only [divf_apply, subf_apply, addf_apply, broadcast_apply, broadcastTo_a1_ab_apply, shapeCast_a_a1_apply]
  rw [min2_axis1_apply, max2_axis1_apply]
  simp only [pay4_apply]
  rfl
theorem pay7_apply : k0_pay7 v (ix2 g s) = mmK (nrm (headOf v g)) s := pay6_apply v g s

theorem pay8_apply : k0_pay8 v (ix3 g u s) = mmK (nrm (headOf v g)) s :=
  (shapeCast_ab_a1b_apply (k0_pay6 v) _ g u s).trans (pay6_apply v g s)
theorem pay9_apply : k0_pay9 v (ix3 g u s) = nrm (headOf v g) s :=
  (shapeCast_ab_a1b_apply (k0_pay4 v) _ g u s).trans (pay4_apply v g s)
theorem pay10_apply : k0_pay10 (F := Ideal) (ix3 g u s) = eps12 := rfl

/-- The unit columns of a slab. -/
theorem pay11_apply : k0_pay11 (k0_pay2 vq) (k0_pay9 vq) (k0_pay10 (F := Ideal)) (ix3 g d s) = unit (headOf vq g) d s := by
  unfold k0_pay11
  simp only [truncf_apply, divf_apply, maximumf_apply, broadcastTo_a1b_acb_apply, pay2_apply, pay9_apply, pay10_apply]
  rfl

/-- A contraction over one axis into a zero accumulator: the sum over the contracted coordinate `k` of the operands'
    products, where `L k` and `R k` are the operand indices the dimension numbers give. -/
theorem matmul0_apply {sl sr so : Shape} (D : DotDims sl sr so) (n : ℕ) (hr : D.contr.rank = 1)
    (hs : D.contr.size ⟨0, by omega⟩ = n) (lhs : FVec Ideal sl .bf16) (rhs : FVec Ideal sr .bf16) (j : so.Idx)
    (L : Fin n → sl.Idx) (R : Fin n → sr.Idx)
    (hL : ∀ (q : D.contr.Idx) (k : Fin n), (q ⟨0, by omega⟩).val = k.val → D.lhsIdx j q = L k)
    (hR : ∀ (q : D.contr.Idx) (k : Fin n), (q ⟨0, by omega⟩).val = k.val → D.rhsIdx j q = R k) :
    matmul D none lhs rhs (constant (F := Ideal) so .f32 0x00000000#32) j = ∑ k : Fin n, lhs (L k) * rhs (R k) := by
  simp only [matmul]
  rw [Ideal.matmul_constant_zero_apply, ← Equiv.sum_comp (contrEquiv1 D n hr hs).symm]
  exact Finset.sum_congr rfl fun k _ => by
    rw [hL _ k (contrEquiv1_symm_val D n hr hs k), hR _ k (contrEquiv1_symm_val D n hr hs k)]

/-- The contraction over features: at `(g, s, t)` the sum over `d` of `lhs (g, d, s) · rhs (g, d, t)`. -/
theorem matmulF_apply (lhs rhs : FVec Ideal S4x256x288 .bf16) :
    matmul dot_S4x256x288_S4x256x288_S4x288x288_1_1_2_2_0_0 none lhs rhs (constant (F := Ideal) S4x288x288 .f32 0x00000000#32) (ix3 g s t)
      = ∑ d : Fin 256, lhs (ix3 g d s) * rhs (ix3 g d t) :=
  matmul0_apply _ 256 rfl rfl lhs rhs _ (fun d => ix3 g d s) (fun d => ix3 g d t)
    (fun q k hq => idx_ext₃ (by simp [DotDims.lhsIdx]; rfl) ((DotDims.lhsIdx_val_of_single _ rfl _ q).trans hq)
      (by simp [DotDims.lhsIdx]; rfl))
    (fun q k hq => idx_ext₃ (by simp [DotDims.rhsIdx]; rfl) ((DotDims.rhsIdx_val_of_single _ rfl _ q).trans hq)
      (by simp [DotDims.rhsIdx]; rfl))

/-- The contraction over positions: at `(g, d, s)` the sum over `t` of `lhs (g, d, t) · rhs (g, s, t)`. -/
theorem matmulW_apply (lhs : FVec Ideal S4x256x288 .bf16) (rhs : FVec Ideal S4x288x288 .bf16) :
    matmul dot_S4x256x288_S4x288x288_S4x256x288_2_2_1_1_0_0 none lhs rhs (constant (F := Ideal) S4x256x288 .f32 0x00000000#32) (ix3 g d s)
      = ∑ t : Fin 288, lhs (ix3 g d t) * rhs (ix3 g s t) :=
  matmul0_apply _ 288 rfl rfl lhs rhs _ (fun t => ix3 g d t) (fun t => ix3 g s t)
    (fun q k hq => idx_ext₃ (by simp [DotDims.lhsIdx]; rfl) (by simp [DotDims.lhsIdx]; rfl)
      ((DotDims.lhsIdx_val_of_single _ rfl _ q).trans hq))
    (fun q k hq => idx_ext₃ (by simp [DotDims.rhsIdx]; rfl) (by simp [DotDims.rhsIdx]; rfl)
      ((DotDims.rhsIdx_val_of_single _ rfl _ q).trans hq))

/-- The attention weights of an anchor slab against a partner slab: the row softmax of fifty times the cosines. -/
theorem pay12_apply :
    k0_pay12 (k0_pay2 vq) (k0_pay3 vk) (k0_pay5 vk) (k0_pay9 vq) (k0_pay10 (F := Ideal)) (ix3 g s t)
      = attn (headOf vq g) (headOf vk g) s t := by
  unfold k0_pay12 attn sim
  simp only [divf_apply, exp_apply, subf_apply, broadcastTo_ab1_abc_apply, shapeCast_ab_ab1_apply]
  rw [sum3_axis2_apply]
  simp only [exp_apply, subf_apply, broadcastTo_ab1_abc_apply, shapeCast_ab_ab1_apply]
  rw [max3_axis2_apply]
  simp only [mulf_apply, broadcast_apply, matmulF_apply, pay11_apply, truncf_apply, divf_apply, maximumf_apply,
    broadcastTo_a1b_acb_apply, shapeCast_ab_a1b_apply, pay3_apply, pay5_apply]
  rfl

/-- The partner's features warped to the anchor's positions. -/
theorem pay13_apply :
    k0_pay13 (k0_pay2 vq) (k0_pay3 vk) (k0_pay5 vk) (k0_pay9 vq) (k0_pay10 (F := Ideal)) (ix3 g d s)
      = warp (headOf vq g) (headOf vk g) d s := by
  unfold k0_pay13 warp
  simp only [matmulW_apply, truncf_apply, pay3_apply, pay12_apply]

/-- The blended reconstruction of a slab. -/
theorem pay14_apply :
    k0_pay14 (k0_pay2 vq) (k0_pay3 vk) (k0_pay5 vk) (k0_pay8 vq) (k0_pay9 vq) (k0_pay10 (F := Ideal))
        (ix4 (0 : Fin 1) g d s)
      = reconH mmK (headOf vq g) (headOf vk g) d s := by
  unfold k0_pay14 reconH
  simp only [shapeCast_abc_1abc_apply, addf_apply, mulf_apply, subf_apply, broadcast_apply, broadcastTo_a1b_acb_apply,
    pay8_apply, pay13_apply, pay2_apply]
  rfl

/-- The accumulators start at zero. -/
theorem pay21_apply : k0_pay21 (F := Ideal) (ix2 u s) = 0 := by
  unfold k0_pay21
  rw [shapeCast_self]
  exact Ideal.ofBits_zero_f32

/-- Two chunks of four heads are the eight heads, added in the body's order. -/
theorem sum_two_chunks (f : Fin 8 → EReal) : ∑ g, f (hd trip0 g) + ∑ g, f (hd trip1 g) = ∑ h, f h := by
  rw [Fin.sum_univ_eight, Fin.sum_univ_four, Fin.sum_univ_four]
  simp only [add_assoc]
  rfl

end Cert.KernelIdeal.Hand.Core

end
-- ==== Proof.KVRecon.lean ====
import proofs.«429718_j54400055771394_3_alg».proof.Proof.KVCore

noncomputable section

namespace Cert.KernelIdeal.Hand

open Idealize.ShloMosaic Idealize.ShloMosaic.ValueIdx Cert.KernelIdeal Cert.KernelIdeal.Gen Cert.Spec Cert.Glue
open Cert.KernelIdeal.Hand.Core

/-- Of two pieces, an index the second places and the first's rectangle does not hold reads the second's payload. -/
theorem canon_pair_second {S : Shape} {e : EltTy} {Val : EltTy → Type} [∀ e, Nonempty (Val e)] (r₁ r₀ : Rect S)
    (w₁ : r₁.shape.Idx → Val e) (w₀ : r₀.shape.Idx → Val e) (x : r₀.shape.Idx) (hx : r₀.emb x ∉ r₁.set) :
    View.canon (Val := Val) [⟨r₁, w₁⟩, ⟨r₀, w₀⟩] (r₀.emb x) = w₀ x :=
  (View.canon_cons_of_not_mem (⟨r₁, w₁⟩ : View.Piece Val S e) [⟨r₀, w₀⟩] hx).trans (View.canon_cons_emb r₀ w₀ [] x)

/-- The slab of chunk `k` is the blend of the heads `4 k + g`. -/
theorem reconChunk_apply (X : Feat) (b bp : Fin 64) (k : Fin k0_t1_loop.trips) (g : Fin 4) (d : Fin 256) (s : Fin 288) :
    reconChunk (F := Ideal) (blkOf X b) (blkOf X bp) k (ix4 (0 : Fin 1) g d s)
      = reconH mmK (X b (hd k g)) (X bp (hd k g)) d s := by
  unfold reconChunk
  rw [pay14_apply, headOf_chunk, headOf_chunk]

/-- The block is the two slabs side by side along the head axis; chunk 0's heads lie outside chunk 1's rectangle. -/
theorem reconBlk_apply (X : Feat) (b bp : Fin 64) (h : Fin 8) (d : Fin 256) (s : Fin 288) :
    reconBlk (F := Ideal) (blkOf X b) (blkOf X bp) (ix4 (0 : Fin 1) h d s) = reconH mmK (X b h) (X bp h) d s := by
  obtain ⟨k, g, rfl⟩ : ∃ k g, h = hd k g :=
    ⟨⟨h.val / 4, by show h.val / 4 < 2; omega⟩, ⟨h.val % 4, by omega⟩,
      Fin.ext (by show h.val = 4 * (h.val / 4) + h.val % 4; omega)⟩
  rw [← chunk_idx, ← reconChunk_apply]
  unfold reconBlk
  match k with
  | ⟨1, _⟩ => exact View.canon_cons_emb (chunkRect trip1) _ _ _
  | ⟨0, _⟩ =>
    refine canon_pair_second (chunkRect trip1) (chunkRect trip0) _ _ _ fun hm => ?_
    have h1 := ((Rect.mem_set_unit.mp hm) 1).1
    simp only [k0_off2_eq] at h1
    have h2 : 4 * 1 ≤ 4 * 0 + 1 * g.val := h1
    omega

end Cert.KernelIdeal.Hand

end
-- ==== Proof.KVComask.lean ====
import proofs.«429718_j54400055771394_3_alg».proof.Proof.KVCore

noncomputable section

namespace Cert.KernelIdeal.Hand

open Idealize.ShloMosaic Idealize.ShloMosaic.ValueIdx Cert.KernelIdeal Cert.KernelIdeal.Gen Cert.Spec Cert.Glue
open Cert.KernelIdeal.Hand.Core

namespace Comask

variable (u u' : Fin 1) (s : Fin 288)

/-- Head `g`'s squared contribution to the co-attention mask: the mask times the attention-weighted sum of the partner's mask. -/
theorem pay15_apply (vq vk : Vec Ideal S1x4x256x288 .f32) (g : Fin 4) :
    k0_pay15 (k0_pay2 vq) (k0_pay3 vk) (k0_pay5 vk) (k0_pay6 vq) (k0_pay7 vk) (k0_pay9 vq) (k0_pay10 (F := Ideal)) (ix2 g s)
      = Spec.sq (chead mmK (headOf vq g) (headOf vk g) s) := by
  unfold k0_pay15
  simp only [mulf_apply]
  rw [sum3_axis2_apply]
  simp only [mulf_apply, broadcastTo_a1b_acb_apply, shapeCast_ab_a1b_apply, pay6_apply, pay7_apply, pay12_apply]
  rfl

/-- A chunk adds its four heads' squared terms to the accumulator. -/
theorem cStep_apply (xq xp : Vec Ideal S1x8x256x288 .f32) (k : Fin k0_t1_loop.trips) (a : Vec Ideal S1x288 .f32) :
    cStep xq xp k a (ix2 u s)
      = a (ix2 u s) + ∑ g : Fin 4, Spec.sq (chead mmK (headOf (chunkOf xq k) g) (headOf (chunkOf xp k) g) s) := by
  unfold cStep k0_pay17 k0_pay16
  simp only [shapeCast_self, addf_apply, slice_row 0 _ _ (0 : Fin 4) rfl, slice_row 1 _ _ (1 : Fin 4) rfl,
    slice_row 2 _ _ (2 : Fin 4) rfl, slice_row 3 _ _ (3 : Fin 4) rfl, pay15_apply, Fin.sum_univ_four]

/-- The min–max normalisation of the square roots of the accumulator's row. -/
theorem pay25_apply (a : Vec Ideal S1x288 .f32) :
    k0_pay25 a (ix3 u u' s) = mmK (fun s' => Ideal.sqrt (a (ix2 u' s'))) s := by
  unfold k0_pay25
  simp only [shapeCast_ab_1ab_apply, divf_apply, subf_apply, addf_apply, broadcastTo_a1_ab_apply, shapeCast_a_a1_apply,
    broadcast_apply]
  rw [min2_axis1_apply, max2_axis1_apply]
  rfl

end Comask

open Comask in
theorem comaskBlk_apply (X : Feat) (b bp : Fin 64) (s : Fin 288) :
    comaskBlk (F := Ideal) (blkOf X b) (blkOf X bp) (ix3 (0 : Fin 1) (0 : Fin 1) s)
      = mmK (fun s' => Ideal.sqrt (∑ h : Fin 8, sq (chead mmK (X b h) (X bp h) s'))) s := by
  unfold comaskBlk
  rw [pay25_apply]
  refine congrArg (fun v => mmK v s) (funext fun s' => congrArg Ideal.sqrt ?_)
  rw [cStep_apply, cStep_apply, pay21_apply, zero_add]
  simp only [headOf_chunk]
  exact sum_two_chunks fun h => sq (chead mmK (X b h) (X bp h) s')

end Cert.KernelIdeal.Hand

end
-- ==== Proof.KVTrip.lean ====
import proofs.«429718_j54400055771394_3_alg».proof.Proof.KVCore

noncomputable section

namespace Cert.KernelIdeal.Hand

open Idealize.ShloMosaic Idealize.ShloMosaic.ValueIdx Cert.KernelIdeal Cert.KernelIdeal.Gen Cert.Spec Cert.Glue
open Cert.KernelIdeal.Hand.Core

namespace Trip

variable (u u' : Fin 1) (s : Fin 288)

/-- One head's squared distance to its reconstruction against a partner head, summed over the features. -/
def headDist (Q K : Head) (s : Fin 288) : EReal :=
  ∑ d : Fin 256, sq (mmK (nrm Q) s * (Q d s - warp Q K d s) + eps6)

/-- A chunk adds its four heads' squared distances to the accumulator. -/
theorem pStep_apply (X : Feat) (b bp : Fin 64) (k : Fin k0_t1_loop.trips) (a : Vec Ideal S1x288 .f32) :
    pStep (blkOf X b) (blkOf X bp) k a (ix2 u s)
      = a (ix2 u s) + ∑ g : Fin 4, headDist (X b (hd k g)) (X bp (hd k g)) s := by
  unfold pStep k0_pay18 headDist
  simp only [shapeCast_self, addf_apply, slice_row 0 _ _ (0 : Fin 4) rfl, slice_row 1 _ _ (1 : Fin 4) rfl,
    slice_row 2 _ _ (2 : Fin 4) rfl, slice_row 3 _ _ (3 : Fin 4) rfl, Fin.sum_univ_four]
  rw [sum3_axis1_apply, sum3_axis1_apply, sum3_axis1_apply, sum3_axis1_apply]
  simp only [mulf_apply, addf_apply, subf_apply, broadcast_apply, broadcastTo_a1b_acb_apply, pay2_apply, pay8_apply,
    pay13_apply, headOf_chunk]
  rfl

/-- The negative branch computes the partner's norms, unit columns, attention and warp by the positive branch's
    operations, so its chunk step is the positive one at the negative partner. -/
theorem nStep_eq (xq xn : Vec Ideal S1x8x256x288 .f32) (k : Fin k0_t1_loop.trips) (a : Vec Ideal S1x288 .f32) :
    nStep xq xn k a = pStep xq xn k a := rfl

theorem pay22_apply : k0_pay22 (F := Ideal) (ix2 u s) = 0 := pay21_apply u s
theorem pay23_apply : k0_pay23 (F := Ideal) (ix2 u s) = 0 := pay21_apply u s

/-- The row: the root of the positive accumulator minus the root of the negative one, plus the margin, cut at zero. -/
theorem pay1_apply (p n : FVec Ideal S1x288 .f32) :
    k0_pay1 (F := Ideal) (k0_pay26 p) n (ix3 u u' s) = max (Ideal.sqrt (p (ix2 u' s)) - Ideal.sqrt (n (ix2 u' s)) + cmargin) c0 := by
  unfold k0_pay1
  rw [shapeCast_ab_1ab_apply]
  rfl

end Trip

open Trip in
theorem tripBlk_apply (X : Feat) (b bp bn : Fin 64) (s : Fin 288) :
    tripBlk (F := Ideal) (blkOf X b) (blkOf X bp) (blkOf X bn) (ix3 (0 : Fin 1) (0 : Fin 1) s)
      = max (Ideal.sqrt (∑ h : Fin 8, ∑ d : Fin 256, sq (mmK (nrm (X b h)) s * (X b h d s - warp (X b h) (X bp h) d s) + eps6))
          - Ideal.sqrt (∑ h : Fin 8, ∑ d : Fin 256, sq (mmK (nrm (X b h)) s * (X b h d s - warp (X b h) (X bn h) d s) + eps6))
          + cmargin) c0 := by
  unfold tripBlk
  rw [pay1_apply, nStep_eq, nStep_eq, pStep_apply, pStep_apply, pStep_apply, pStep_apply, pay22_apply, pay23_apply,
    zero_add, zero_add, sum_two_chunks fun h => headDist (X b h) (X bp h) s,
    sum_two_chunks fun h => headDist (X b h) (X bn h) s]
  rfl

end Cert.KernelIdeal.Hand

end
-- ==== Proof.KernelArr.lean ====
import proofs.«429718_j54400055771394_3_alg».proof.Proof.FrameDefs
import proofs.«429718_j54400055771394_3_alg».proof.Proof.Glue
import Idealize.ShloMosaic.Lib.ValueIdx
import Idealize.ShloMosaic.Lib.ValueLayout
import Idealize.ShloMosaic.Lib.Pipeline.StackWindow
import Idealize.ShloMosaic.Lib.Tactic

noncomputable section

namespace Cert.KernelIdeal.Hand

open Idealize.ShloMosaic Idealize.ShloMosaic.TcCoe Idealize.ShloMosaic.ValueIdx Idealize.ShloMosaic.StackWindow Idealize.SL.Sem
open Idealize.ShloMosaic.Pipeline (Dat Window)
open Cert.KernelIdeal Cert.KernelIdeal.Gen Cert.Spec Cert.Glue

namespace Arr

variable {α : Type} {G r : Nat} {d : Fin r → Nat}

/-- An index map that names row `g`: `g` on the leading axis, `0` on the others. -/
def Leads (ix : Fin (r + 1) → Nat) (g : Nat) : Prop := ix 0 = g ∧ ∀ b : Fin r, ix b.succ = 0

instance (ix : Fin (r + 1) → Nat) (g : Nat) : Decidable (Leads ix g) := by unfold Leads; infer_instance

/-- An index of the stack as an index of one member's block: the leading coordinate set to `0`. -/
def unitOf (i : (stackShape G d).Idx) : (blockShape d).Idx := Fin.cons (0 : Fin 1) (Fin.tail i : (⟨r, d⟩ : Shape).Idx)

/-- The stack whose member `g`, with a leading unit axis, is `R g`. -/
def stackOf (R : Fin G → (blockShape d).Idx → α) : (stackShape G d).Idx → α := fun i => R (i 0) (unitOf i)

theorem stackOf_ix4 {n₁ n₂ n₃ : Nat} (R : Fin G → (blockShape ![n₁, n₂, n₃]).Idx → α) (b : Fin G) (h : Fin n₁) (e : Fin n₂)
    (s : Fin n₃) : stackOf R (ix4 b h e s) = R b (ix4 0 h e s) := congrArg (R b) (eq_ix4 _)

theorem stackOf_ix3 {n₁ n₂ : Nat} (R : Fin G → (blockShape ![n₁, n₂]).Idx → α) (b : Fin G) (h : Fin n₁) (s : Fin n₂) :
    stackOf R (ix3 b h s) = R b (ix3 0 h s) := congrArg (R b) (eq_ix3 _)

section Embeds
variable {emb : (blockShape d).Idx → (stackShape G d).Idx} {g : Fin G}

/-- A block of leading size 1 whose index names row `g` embeds its indices into row `g`. -/
theorem embeds_of_leads {ix : Fin (r + 1) → Nat} (hx : Leads ix g.val)
    (he : ∀ y a, (emb y a).val = ix a * Matrix.vecCons 1 d a + (y a).val) : EmbedsMember emb g :=
  ⟨fun y => by
      have hy : (y 0).val < 1 := (y 0).isLt
      have := he y 0
      rw [hx.1] at this
      exact this.trans (by show g.val * 1 + (y 0).val = g.val; omega),
    fun y b => by rw [he y b.succ, hx.2 b, Nat.zero_mul, Nat.zero_add]⟩

/-- Every index of row `g` is under such a block. -/
theorem mem_of_embeds (h : EmbedsMember emb g) {S : Finset (stackShape G d).Idx} (hS : ∀ y, emb y ∈ S)
    (i : (stackShape G d).Idx) (hi : i 0 = g) : i ∈ S := by
  have e : emb (unitOf i) = i := by rw [h.eq_cons, ← hi]; exact Fin.cons_self_tail i
  exact e ▸ hS _

variable {rd : ((stackShape G d).Idx → α) → (blockShape d).Idx → α} (hr : ∀ A y, rd A y = A (emb y))
include hr

/-- Such a block, read off the stack of the `R g`, is `R g`. -/
theorem read_stackOf (h : EmbedsMember emb g) (R : Fin G → (blockShape d).Idx → α) : rd (stackOf R) = R g := by
  funext y
  rw [hr, h.eq_cons]
  exact congrArg (R g) (funext (Fin.cases (Subsingleton.elim (α := Fin 1) _ _) fun b => rfl))

/-- So what a point leaves, when it is `R g`, is its block of that stack. -/
theorem eq_read_stackOf (h : EmbedsMember emb g) {R : Fin G → (blockShape d).Idx → α} {f X : (blockShape d).Idx → α}
    (hX : X = R g) (hf : ∀ y, f y = X y) : f = rd (stackOf R) :=
  (funext hf).trans (hX.trans (read_stackOf hr h R).symm)

end Embeds

theorem flush_of_index {G : Pipeline.Grid} (w : Window sig G) (ho : w.isOut = true) (a : Fin w.shape.rank)
    (h : ∀ t, w.index t a = t.val) (t : Fin G.N) : w.flush t = true :=
  (w.flush_out ho t).mpr (by
    by_cases e : t.val + 1 = G.N
    · exact .inl e
    · exact .inr ⟨by have := t.isLt; omega,
        fun e' => absurd ((h _).symm.trans ((congrFun e' a).trans (h t))) (Nat.succ_ne_self _)⟩)

variable (m : (ℓ : Loc nD τ sig) → Buf (Elt Ideal) ℓ)

/-- A grid point as a sample number. -/
abbrev smp (t : Fin grid0.N) : Fin 64 := Fin.cast N_0 t

theorem own_idx : ∀ t : Fin grid0.N,
    Leads (cc0_transform_0 (grid0.coords t)) t.val ∧ Leads (cc0_transform_3 (grid0.coords t)) t.val
      ∧ Leads (cc0_transform_4 (grid0.coords t)) t.val ∧ Leads (cc0_transform_5 (grid0.coords t)) t.val
      ∧ k0_off1 (grid0.coords t) 0 = t.val := by
  decide +kernel

/-- The two table-indexed maps name the rows the tables' words for the point name. -/
theorem tab_idx (pf : pre0.Contents (Elt Ideal)) (t : Fin grid0.N) :
    Leads (cc0_transform_1 Facts₀.k0_off1_inb Facts₀.numel1_S1 pf (grid0.coords t)) (pf 0 (ix1 (smp t))).toNat
      ∧ Leads (cc0_transform_2 Facts₀.k0_off1_inb Facts₀.numel1_S1 pf (grid0.coords t)) (pf 1 (ix1 (smp t))).toNat := by
  have e : ∀ x : S64.Idx, (x 0).val = k0_off1 (grid0.coords t) 0 → x = ix1 (smp t) := fun x hx =>
    (eq_ix1 x).trans (congrArg ix1 (Fin.ext (hx.trans (own_idx t).2.2.2.2)))
  exact ⟨⟨congrArg BitVec.toNat (congrArg (pf 0) (e _ rfl)), fun b => by match b with | 0 | 1 | 2 => rfl⟩,
    ⟨congrArg BitVec.toNat (congrArg (pf 1) (e _ rfl)), fun b => by match b with | 0 | 1 | 2 => rfl⟩⟩

variable (hO : Ok m) (c : Dev nD) (t : Fin (cfgM m hO).N)

/-- The two tables the region reads are the two index arguments. -/
theorem tbl_eq : (tbl (F := Ideal) m 0 : S64.Idx → BitVec 32) = m ((c.tc : Thread nD τ).loc main_arg2)
    ∧ (tbl (F := Ideal) m 1 : S64.Idx → BitVec 32) = m ((c.tc : Thread nD τ).loc main_arg3) := by
  obtain rfl : c = 0 := Subsingleton.elim _ _
  unfold tbl
  constructor <;>
  · show V m 0 _ = _
    dsimp only [V, V0]
    simp only [hostOps0, List.flatten_cons, List.flatten_nil, List.append_nil]
    after_results
    rfl

/-- The samples (the two feature arguments concatenated) and the partners the two tables name. -/
abbrev feat : Feat := featOf (m ((c.tc : Thread nD τ).loc main_arg0)) (m ((c.tc : Thread nD τ).loc main_arg1))
abbrev pos : Fin 64 → Fin 64 := idxOf (m ((c.tc : Thread nD τ).loc main_arg2))
abbrev neg : Fin 64 → Fin 64 := idxOf (m ((c.tc : Thread nD τ).loc main_arg3))

/-- Row `b` of the region's input array, the reshaped concatenation, is sample `b`. -/
theorem vIn_apply (b : Fin 64) (h : Fin 8) (d : Fin 256) (s : Fin 288) :
    (V (F := Ideal) m c main_v1 : S64x8x256x288.Idx → EReal) (ix4 b h d s) = feat m c b h d s := by
  have hb := b.isLt; have hh := h.isLt; have hd := d.isLt; have hs := s.isLt
  dsimp only [V, V0]
  simp only [hostOps0, List.flatten_cons, List.flatten_nil, List.append_nil]
  after_results
  refine (shapeCast_apply _ _ (ix4 b h d s) (ix4 b (⟨h.val * 256 + d.val, by omega⟩ : Fin 2048) (⟨s.val / 12, by omega⟩ : Fin 24)
    (⟨s.val % 12, Nat.mod_lt _ (by decide)⟩ : Fin 12)) ?_).trans ?_
  · rw [Shape.rowMajor_val_four, Shape.rowMajor_val_four]
    show ((b.val * 2048 + (h.val * 256 + d.val)) * 24 + s.val / 12) * 12 + s.val % 12
      = ((b.val * 8 + h.val) * 256 + d.val) * 288 + s.val
    omega
  · unfold feat featOf
    split
    · exact concatenate_pair_apply_left (t := S64x2048x24x12) (s₁ := S32x2048x24x12) (s₂ := S32x2048x24x12) (0 : Fin 4) _ _ _ _ rfl _
        fun a => by match a with | ⟨0, _⟩ | ⟨1, _⟩ | ⟨2, _⟩ | ⟨3, _⟩ => rfl
    · exact concatenate_pair_apply_right (t := S64x2048x24x12) (s₁ := S32x2048x24x12) (s₂ := S32x2048x24x12) (0 : Fin 4) _ _ _ _ rfl rfl _
        (fun a ha => by match a with | ⟨0, _⟩ => exact absurd rfl ha | ⟨1, _⟩ | ⟨2, _⟩ | ⟨3, _⟩ => rfl)
        (by show b.val - 32 + 32 = b.val; omega)

/-- A window of the input array whose blocks embed into row `g` holds sample `g`. -/
theorem blk_eq {rd : (S64x8x256x288.Idx → EReal) → S1x8x256x288.Idx → EReal} {emb : S1x8x256x288.Idx → S64x8x256x288.Idx}
    (hr : ∀ A y, rd A y = A (emb y)) {g : Fin 64} (h : EmbedsMember (d := ![8, 256, 288]) emb g) :
    rd (V (F := Ideal) m c main_v1) = blkOf (feat m c) g :=
  funext fun y => (hr _ y).trans ((congrArg _ ((h.eq_cons y).trans (eq_ix4 _))).trans (vIn_apply m c g (y 1) (y 2) (y 3)))

theorem qblk_eq : qblk (F := Ideal) m hO c t = blkOf (feat m c) (smp t) :=
  blk_eq m c (rd := (((cfgM m hO).win 0).blk t).view.read (Elt Ideal)) (fun _ _ => rfl)
    (embeds_of_leads (own_idx t).1 fun y a => ((cfgM m hO).win 0).rect_emb_val t y a)

theorem pblk_eq (h2 : InRange (m ((c.tc : Thread nD τ).loc main_arg2))) :
    pblk (F := Ideal) m hO c t = blkOf (feat m c) (pos m c (smp t)) :=
  blk_eq m c (rd := (((cfgM m hO).win 1).blk t).view.read (Elt Ideal)) (fun _ _ => rfl)
    (embeds_of_leads (g := pos m c (smp t))
      (by have := (tab_idx (tbl m) t).1; rwa [(tbl_eq m c).1, ← Nat.mod_eq_of_lt (h2 (smp t))] at this)
      fun y a => ((cfgM m hO).win 1).rect_emb_val t y a)

theorem nblk_eq (h3 : InRange (m ((c.tc : Thread nD τ).loc main_arg3))) :
    nblk (F := Ideal) m hO c t = blkOf (feat m c) (neg m c (smp t)) :=
  blk_eq m c (rd := (((cfgM m hO).win 2).blk t).view.read (Elt Ideal)) (fun _ _ => rfl)
    (embeds_of_leads (g := neg m c (smp t))
      (by have := (tab_idx (tbl m) t).2; rwa [(tbl_eq m c).2, ← Nat.mod_eq_of_lt (h3 (smp t))] at this)
      fun y a => ((cfgM m hO).win 2).rect_emb_val t y a)

theorem after_eq : (dats m hO 0 c).after 3 t = reconBlk (qblk m hO c t) (pblk m hO c t)
    ∧ (dats m hO 0 c).after 4 t = comaskBlk (qblk m hO c t) (pblk m hO c t)
    ∧ (dats m hO 0 c).after 5 t = tripBlk (qblk m hO c t) (pblk m hO c t) (nblk m hO c t) := by
  dsimp only [dats]
  exact ⟨rfl, rfl, rfl⟩

theorem out_emb : EmbedsMember (d := ![8, 256, 288]) (((cfgM m hO).win 3).blk t).view.emb (smp t)
    ∧ EmbedsMember (d := ![1, 288]) (((cfgM m hO).win 4).blk t).view.emb (smp t)
    ∧ EmbedsMember (d := ![1, 288]) (((cfgM m hO).win 5).blk t).view.emb (smp t) :=
  ⟨embeds_of_leads (own_idx t).2.1 fun y a => ((cfgM m hO).win 3).rect_emb_val t y a,
    embeds_of_leads (own_idx t).2.2.1 fun y a => ((cfgM m hO).win 4).rect_emb_val t y a,
    embeds_of_leads (own_idx t).2.2.2.1 fun y a => ((cfgM m hO).win 5).rect_emb_val t y a⟩

variable (h2 : InRange (m ((c.tc : Thread nD τ).loc main_arg2))) (h3 : InRange (m ((c.tc : Thread nD τ).loc main_arg3)))
include h2

/-- Each result array ends as the stack, sample by sample, of the body's block for the sample and its partners. -/
theorem arrRecon_eq : arrRecon m hO c
    = stackOf fun b => reconBlk (F := Ideal) (blkOf (feat m c) b) (blkOf (feat m c) (pos m c b)) :=
  (dats m hO 0 c).arrAt_eq_of_cover 3 _
    (fun t _ => eq_read_stackOf (rd := (((cfgM m hO).win 3).blk t).view.read (Elt Ideal)) (fun _ _ => rfl) (out_emb m hO t).1
      ((after_eq m hO c t).1.trans (by rw [qblk_eq, pblk_eq m hO c t h2])) fun _ => rfl)
    fun (i : S64x8x256x288.Idx) => ⟨Fin.cast N_0.symm (i 0), flush_of_index ((cfgM m hO).win 3) rfl (0 : Fin 4) (fun t => (own_idx t).2.1.1) _,
      mem_of_embeds (out_emb m hO _).1 (View.emb_mem_set _) i rfl⟩

theorem arrComask_eq : arrComask m hO c
    = stackOf fun b => comaskBlk (F := Ideal) (blkOf (feat m c) b) (blkOf (feat m c) (pos m c b)) :=
  (dats m hO 0 c).arrAt_eq_of_cover 4 _
    (fun t _ => eq_read_stackOf (rd := (((cfgM m hO).win 4).blk t).view.read (Elt Ideal)) (fun _ _ => rfl) (out_emb m hO t).2.1
      ((after_eq m hO c t).2.1.trans (by rw [qblk_eq, pblk_eq m hO c t h2])) fun _ => rfl)
    fun (i : S64x1x288.Idx) => ⟨Fin.cast N_0.symm (i 0), flush_of_index ((cfgM m hO).win 4) rfl (0 : Fin 3) (fun t => (own_idx t).2.2.1.1) _,
      mem_of_embeds (out_emb m hO _).2.1 (View.emb_mem_set _) i rfl⟩

include h3

theorem arrTrip_eq : arrTrip m hO c
    = stackOf fun b => tripBlk (F := Ideal) (blkOf (feat m c) b) (blkOf (feat m c) (pos m c b)) (blkOf (feat m c) (neg m c b)) :=
  (dats m hO 0 c).arrAt_eq_of_cover 5 _
    (fun t _ => eq_read_stackOf (rd := (((cfgM m hO).win 5).blk t).view.read (Elt Ideal)) (fun _ _ => rfl) (out_emb m hO t).2.2
      ((after_eq m hO c t).2.2.trans (by rw [qblk_eq, pblk_eq m hO c t h2, nblk_eq m hO c t h3])) fun _ => rfl)
    fun (i : S64x1x288.Idx) => ⟨Fin.cast N_0.symm (i 0), flush_of_index ((cfgM m hO).win 5) rfl (0 : Fin 3) (fun t => (own_idx t).2.2.2.1.1) _,
      mem_of_embeds (out_emb m hO _).2.2 (View.emb_mem_set _) i rfl⟩

end Arr

end Cert.KernelIdeal.Hand

end
-- ==== Proof.KernelOut.lean ====
import proofs.«429718_j54400055771394_3_alg».proof.Proof.KVRecon
import proofs.«429718_j54400055771394_3_alg».proof.Proof.KVComask
import proofs.«429718_j54400055771394_3_alg».proof.Proof.KVTrip
import proofs.«429718_j54400055771394_3_alg».proof.Proof.KernelArr
import Idealize.ShloMosaic.Lib.ValueIdxRank1
import Idealize.ShloMosaic.PureOps.Ideal.Laws

noncomputable section

namespace Cert.KernelIdeal.Hand

open Idealize.ShloMosaic Idealize.ShloMosaic.TcCoe Idealize.ShloMosaic.ValueIdx Idealize.SL.Sem
open Cert.KernelIdeal Cert.KernelIdeal.Gen Cert.Spec Cert.Glue

namespace Out

/-- Channel `ch` is head `ch / 256`, feature `ch % 256`, and cell `(r, q)` is position `12 r + q`. -/
theorem recon_cast (A : Vec Ideal S64x8x256x288 .f32) (hc : S64x8x256x288.ShapeCasts S64x2048x24x12) (X : Feat)
    (P : Fin 64 → Fin 64) (hA : ∀ b h d s, A (ix4 b h d s) = reconH mmK (X b h) (X (P b) h) d s) :
    shapeCast S64x2048x24x12 A hc = reconOut mmK X P := by
  funext i
  obtain ⟨b, ch, r, q, rfl⟩ : ∃ (b : Fin 64) (ch : Fin 2048) (r : Fin 24) (q : Fin 12), i = ix4 b ch r q :=
    ⟨_, _, _, _, eq_ix4 i⟩
  have hch := ch.isLt; have hr := r.isLt; have hq := q.isLt
  refine (shapeCast_apply A hc _ (ix4 b (⟨ch.val / 256, by omega⟩ : Fin 8) (⟨ch.val % 256, Nat.mod_lt _ (by decide)⟩ : Fin 256)
    (⟨r.val * 12 + q.val, by omega⟩ : Fin 288)) ?_).trans ((hA _ _ _ _).trans rfl)
  rw [Shape.rowMajor_val_four, Shape.rowMajor_val_four]
  show ((b.val * 8 + ch.val / 256) * 256 + ch.val % 256) * 288 + (r.val * 12 + q.val)
    = ((b.val * 2048 + ch.val) * 24 + r.val) * 12 + q.val
  omega

/-- The sum over the samples of a sample × 1 × position array, from zero. -/
abbrev colSum (C : Vec Ideal S64x1x288 .f32) : Vec Ideal S288 .f32 :=
  Host.reduceAdd (shapeCast S64x288 C Facts₀.shapeCasts_S64x1x288_S64x288)
    (constant (F := Ideal) S_ .f32 0x00000000#32) Facts₀.reducesTo_S64x288_S288_d0 Facts₀.h_S_

theorem colSum_apply (C : Vec Ideal S64x1x288 .f32) (cm : Fin 64 → Fin 288 → EReal)
    (hC : ∀ b s, C (ix3 b (0 : Fin 1) s) = cm b s) (s : Fin 288) : colSum C (ix1 s) = ∑ b : Fin 64, cm b s := by
  have hR : S64x288.Reduces [0] S288 := by decide
  show Ideal.hostReduceAdd Facts₀.reducesTo_S64x288_S288_d0 _ (Ideal.ofBits .f32 0x00000000#32) (ix1 s) = _
  rw [Ideal.hostReduceAdd_single _ hR, Ideal.ofBits_zero_f32, zero_add]
  refine Finset.sum_congr rfl fun (b : Fin 64) _ => ?_
  rw [(eq_ix2 _ : hR.lift (ix1 s) b = ix2 b s)]
  refine (shapeCast_apply C _ (ix2 b s) (ix3 b (0 : Fin 1) s) ?_).trans (hC b s)
  rw [Shape.rowMajor_val_three, Shape.rowMajor_val_two]
  show (b.val * 1 + 0) * 288 + s.val = b.val * 288 + s.val
  omega

/-- Both small arrays summed over the samples, multiplied position by position, summed and divided by the count. -/
theorem loss_host (C T : Vec Ideal S64x1x288 .f32) (cm tr : Fin 64 → Fin 288 → EReal)
    (hC : ∀ b s, C (ix3 b (0 : Fin 1) s) = cm b s) (hT : ∀ b s, T (ix3 b (0 : Fin 1) s) = tr b s) :
    Host.divf (Host.reduceAdd (mulf (colSum C) (colSum T)) (constant (F := Ideal) S_ .f32 0x00000000#32)
        Facts₀.reducesTo_S288_S_d0 Facts₀.h_S_) (constant (F := Ideal) S_ .f32 0x49900000#32)
      = fun _ => Ideal.div (∑ s : Fin 288, (∑ b : Fin 64, cm b s) * (∑ b : Fin 64, tr b s)) cdenom := by
  funext j
  show Ideal.div (Ideal.hostReduceAdd Facts₀.reducesTo_S288_S_d0 _ (Ideal.ofBits .f32 0x00000000#32) j) cdenom = _
  rw [Ideal.hostReduceAdd_total _ (fun b => b.elim0), Ideal.ofBits_zero_f32, zero_add, ← Equiv.sum_comp idxEquiv1.symm]
  refine congrArg (fun z => Ideal.div z cdenom) (Finset.sum_congr rfl fun (s : Fin 288) _ => ?_)
  show colSum C (ix1 s) * colSum T (ix1 s) = _
  rw [colSum_apply C cm hC, colSum_apply T tr hT]

end Out

open Arr

variable (m : (ℓ : Loc nD τ sig) → Buf (Elt Ideal) ℓ)

theorem outRecon_eq (hO : Ok m) (c : Dev nD) (h2 : InRange (m ((c.tc : Thread nD τ).loc main_arg2))) :
    outRecon (F := Ideal) m hO c
      = reconOut mmK (featOf (m ((c.tc : Thread nD τ).loc main_arg0)) (m ((c.tc : Thread nD τ).loc main_arg1)))
          (idxOf (m ((c.tc : Thread nD τ).loc main_arg2))) := by
  unfold outRecon
  rw [arrRecon_eq m hO c h2]
  exact Out.recon_cast _ _ _ _ fun b h d s => (stackOf_ix4 _ b h d s).trans (reconBlk_apply _ b _ h d s)

theorem outLoss_eq (hO : Ok m) (c : Dev nD) (h2 : InRange (m ((c.tc : Thread nD τ).loc main_arg2)))
    (h3 : InRange (m ((c.tc : Thread nD τ).loc main_arg3))) :
    outLoss (F := Ideal) m hO c
      = fun _ => lossK (featOf (m ((c.tc : Thread nD τ).loc main_arg0)) (m ((c.tc : Thread nD τ).loc main_arg1)))
          (idxOf (m ((c.tc : Thread nD τ).loc main_arg2))) (idxOf (m ((c.tc : Thread nD τ).loc main_arg3))) := by
  unfold outLoss
  rw [arrComask_eq m hO c h2, arrTrip_eq m hO c h2 h3]
  exact Out.loss_host _ _ (comask mmK (feat m c) (pos m c)) (tripK (feat m c) (pos m c) (neg m c))
    (fun b s => (stackOf_ix3 _ b 0 s).trans (comaskBlk_apply _ b _ s))
    (fun b s => (stackOf_ix3 _ b 0 s).trans (tripBlk_apply _ b _ _ s))

end Cert.KernelIdeal.Hand

end
-- ==== Proof.Algebra.lean ====
import proofs.«429718_j54400055771394_3_alg».proof.Proof.Spec
import proofs.«429718_j54400055771394_3_alg».proof.Proof.Glue
import Mathlib.Data.Finset.Fold
import Mathlib.Algebra.BigOperators.Ring.Finset
import Mathlib.Algebra.Order.BigOperators.Group.Finset

noncomputable section

namespace Cert.Spec

open Idealize.ShloMosaic Cert.Glue

theorem ninf_eq : ninf = ⊥ := by simp [Ideal.ofBits, Ideal.ieee]
theorem pinf_eq : pinf = ⊤ := by simp [Ideal.ofBits, Ideal.ieee]
theorem c1_eq : c1 = ((1 : ℝ) : EReal) := by simp [Ideal.ofBits, Ideal.ieee, -EReal.coe_mul]; norm_num
theorem c0_eq : c0 = ((0 : ℝ) : EReal) := by simp [Ideal.ofBits, Ideal.ieee]
theorem eps12_pos : ∃ e : ℝ, 0 < e ∧ eps12 = (e : EReal) := by simp [Ideal.ofBits, Ideal.ieee, -EReal.coe_mul]

def IsR (x : EReal) : Prop := ∃ r : ℝ, x = (r : EReal)

theorem IsR.add {x y : EReal} (hx : IsR x) (hy : IsR y) : IsR (x + y) := by
  obtain ⟨a, rfl⟩ := hx; obtain ⟨b, rfl⟩ := hy; exact ⟨a + b, (EReal.coe_add a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.max {x y : EReal} (hx : IsR x) (hy : IsR y) : IsR (max x y) := by
  rcases max_choice x y with h | h <;> rw [h] <;> assumption
theorem IsR.min {x y : EReal} (hx : IsR x) (hy : IsR y) : IsR (min x y) := by
  rcases min_choice x y with h | h <;> rw [h] <;> assumption

theorem IsR.sum {ι : Type} (S : Finset ι) (f : ι → EReal) (h : ∀ i ∈ S, IsR (f i)) : IsR (∑ i ∈ S, f i) := by
  classical
  induction S using Finset.induction_on with
  | empty => exact ⟨0, by simp⟩
  | insert a s ha ih =>
    rw [Finset.sum_insert ha]
    exact (h a (Finset.mem_insert_self a s)).add (ih (fun i hi => h i (Finset.mem_insert_of_mem hi)))

theorem coe_sum {ι : Type} (S : Finset ι) (f : ι → ℝ) : ((∑ i ∈ S, f i : ℝ) : EReal) = ∑ i ∈ S, (f i : EReal) := by
  classical
  induction S using Finset.induction_on with
  | empty => simp
  | insert a s ha ih => rw [Finset.sum_insert ha, Finset.sum_insert ha, EReal.coe_add, ih]

theorem IsR.sqrt {x : EReal} (hx : IsR x) (h0 : 0 ≤ x) : IsR (Ideal.sqrt x) := by
  obtain ⟨a, rfl⟩ := hx
  have ha : ¬ a < 0 := not_lt.2 (by exact_mod_cast h0)
  rw [Ideal.sqrt_coe, if_neg ha]; exact ⟨_, rfl⟩

theorem IsR.exp {x : EReal} (hx : IsR x) : IsR (Ideal.exp x) := by
  obtain ⟨a, rfl⟩ := hx; exact ⟨_, Ideal.exp_coe a⟩

theorem exp_pos_of {x : EReal} (hx : IsR x) : 0 < Ideal.exp x := by
  obtain ⟨a, rfl⟩ := hx; rw [Ideal.exp_coe]; exact_mod_cast Real.exp_pos a

theorem IsR.div {x y : EReal} (hx : IsR x) (hy : IsR y) (h0 : y ≠ 0) : IsR (Ideal.div x y) := by
  obtain ⟨a, rfl⟩ := hx; obtain ⟨b, rfl⟩ := hy
  have hb : b ≠ 0 := by intro h; exact h0 (by rw [h]; rfl)
  rw [Ideal.div_coe hb, ← EReal.coe_mul]; exact ⟨_, rfl⟩

theorem mul_self_nonneg_of {a : EReal} (h : IsR a) : 0 ≤ a * a := by
  obtain ⟨r, rfl⟩ := h; rw [← EReal.coe_mul]; exact_mod_cast mul_self_nonneg r

theorem IsR_eps12 : IsR eps12 := by obtain ⟨e, _, he⟩ := eps12_pos; exact ⟨e, he⟩
theorem IsR_eps6 : IsR eps6 := by simp [IsR, Ideal.ofBits, Ideal.ieee, -EReal.coe_mul]
theorem IsR_c50 : IsR c50 := by simp [IsR, Ideal.ofBits, Ideal.ieee, -EReal.coe_mul]
theorem IsR_cmargin : IsR cmargin := by simp [IsR, Ideal.ofBits, Ideal.ieee, -EReal.coe_mul]
theorem IsR_c0 : IsR c0 := ⟨0, c0_eq⟩

theorem fold_max_sub (v : Row) (c : EReal) (S : Finset (Fin 288)) :
    S.fold max ⊥ (fun s => v s - c) = S.fold max ⊥ v - c := by
  induction S using Finset.induction_on with
  | empty => simp [EReal.bot_sub]
  | insert a s ha ih =>
    rw [Finset.fold_insert ha, Finset.fold_insert ha, ih]
    exact ((show Monotone (fun x : EReal => x - c) from fun x y h => EReal.sub_le_sub h le_rfl).map_max).symm

/-- Subtracting a constant commutes with the maximum of a row, so the two min–max spellings agree. -/
theorem vmax_sub (v : Row) (c : EReal) : vmax (fun s => v s - c) = vmax v - c := by
  unfold vmax; rw [ninf_eq]; exact fold_max_sub v c _

theorem le_vmax (v : Row) (s : Fin 288) : v s ≤ vmax v :=
  (Finset.le_fold_max _).2 (Or.inr ⟨s, Finset.mem_univ s, le_rfl⟩)

theorem vmin_le (v : Row) (s : Fin 288) : vmin v ≤ v s :=
  (Finset.fold_min_le _).2 (Or.inr ⟨s, Finset.mem_univ s, le_rfl⟩)

theorem IsR_fold_max (v : Row) (h : ∀ s, IsR (v s)) (S : Finset (Fin 288)) (hS : S.Nonempty) :
    IsR (S.fold max ⊥ v) := by
  induction hS using Finset.Nonempty.cons_induction with
  | singleton a => rw [Finset.fold_singleton, max_bot_right]; exact h a
  | cons a s ha hs ih => rw [Finset.fold_cons]; exact (h a).max ih

theorem IsR_fold_min (v : Row) (h : ∀ s, IsR (v s)) (S : Finset (Fin 288)) (hS : S.Nonempty) :
    IsR (S.fold min ⊤ v) := by
  induction hS using Finset.Nonempty.cons_induction with
  | singleton a => rw [Finset.fold_singleton, min_top_right]; exact h a
  | cons a s ha hs ih => rw [Finset.fold_cons]; exact (h a).min ih

theorem IsR_vmax (v : Row) (h : ∀ s, IsR (v s)) : IsR (vmax v) := by
  unfold vmax; rw [ninf_eq]; exact IsR_fold_max v h _ ⟨0, Finset.mem_univ _⟩

theorem IsR_vmin (v : Row) (h : ∀ s, IsR (v s)) : IsR (vmin v) := by
  unfold vmin; rw [pinf_eq]; exact IsR_fold_min v h _ ⟨0, Finset.mem_univ _⟩

theorem mmR_eq_mmK (v : Row) : mmR v = mmK v := by
  funext s
  unfold mmR mmK
  rw [vmax_sub]

theorem mmR_eq : mmR = mmK := funext mmR_eq_mmK

theorem reconOut_mmR (X : Feat) (p : Fin 64 → Fin 64) : reconOut mmR X p = reconOut mmK X p := by
  rw [mmR_eq]

theorem denom_ne {M m : EReal} (hM : IsR M) (hm : IsR m) (hle : m ≤ M) : (M - m) + eps12 ≠ 0 := by
  obtain ⟨a, rfl⟩ := hM; obtain ⟨b, rfl⟩ := hm; obtain ⟨e, he0, he⟩ := eps12_pos
  rw [he, ← EReal.coe_sub, ← EReal.coe_add]
  have hba : b ≤ a := by exact_mod_cast hle
  have hpos : (0 : ℝ) < a - b + e := by linarith
  exact_mod_cast hpos.ne'

theorem IsR_mmK (v : Row) (h : ∀ s, IsR (v s)) (s : Fin 288) : IsR (mmK v s) := by
  unfold mmK
  have hmax := IsR_vmax v h
  have hmin := IsR_vmin v h
  exact ((h s).sub hmin).div ((hmax.sub hmin).add IsR_eps12)
    (denom_ne hmax hmin ((vmin_le v s).trans (le_vmax v s)))

def HeadR (Q : Head) : Prop := ∀ d s, IsR (Q d s)

theorem IsR_sqrt_sum_sq {ι : Type} (S : Finset ι) (f : ι → EReal) (h : ∀ i ∈ S, IsR (f i)) :
    IsR (Ideal.sqrt (∑ i ∈ S, sq (f i))) :=
  (IsR.sum S _ (fun i hi => (h i hi).mul (h i hi))).sqrt
    (Finset.sum_nonneg (fun i hi => mul_self_nonneg_of (h i hi)))

theorem IsR_nrm {Q : Head} (hQ : HeadR Q) (s : Fin 288) : IsR (nrm Q s) :=
  IsR_sqrt_sum_sq Finset.univ (fun d => Q d s) (fun d _ => hQ d s)

theorem max_eps_ne (a : EReal) : max a eps12 ≠ 0 := by
  obtain ⟨e, he0, he⟩ := eps12_pos
  have hpos : (0 : EReal) < max a eps12 := lt_max_of_lt_right (by rw [he]; exact_mod_cast he0)
  exact hpos.ne'

theorem IsR_unit {Q : Head} (hQ : HeadR Q) (d : Fin 256) (s : Fin 288) : IsR (unit Q d s) :=
  (hQ d s).div ((IsR_nrm hQ s).max IsR_eps12) (max_eps_ne _)

theorem IsR_sim {Q K : Head} (hQ : HeadR Q) (hK : HeadR K) (s t : Fin 288) : IsR (sim Q K s t) :=
  (IsR.sum _ _ (fun d _ => (IsR_unit hQ d s).mul (IsR_unit hK d t))).mul IsR_c50

theorem IsR_attn {Q K : Head} (hQ : HeadR Q) (hK : HeadR K) (s t : Fin 288) : IsR (attn Q K s t) := by
  unfold attn
  have hm : IsR (vmax (sim Q K s)) := IsR_vmax _ (fun t => IsR_sim hQ hK s t)
  have he : ∀ t', IsR (Ideal.exp (sim Q K s t' - vmax (sim Q K s))) :=
    fun t' => ((IsR_sim hQ hK s t').sub hm).exp
  have hp : ∀ t', 0 < Ideal.exp (sim Q K s t' - vmax (sim Q K s)) :=
    fun t' => exp_pos_of ((IsR_sim hQ hK s t').sub hm)
  refine (he t).div (IsR.sum _ _ (fun t' _ => he t')) ?_
  exact (lt_of_lt_of_le (hp t) (Finset.single_le_sum (fun t' _ => (hp t').le) (Finset.mem_univ t))).ne'

theorem IsR_warp {Q K : Head} (hQ : HeadR Q) (hK : HeadR K) (d : Fin 256) (s : Fin 288) : IsR (warp Q K d s) :=
  IsR.sum _ _ (fun t _ => (hK d t).mul (IsR_attn hQ hK s t))

theorem IsR_mask {Q : Head} (hQ : HeadR Q) (s : Fin 288) : IsR (mmK (nrm Q) s) :=
  IsR_mmK (nrm Q) (IsR_nrm hQ) s

theorem IsR_chead {Q K : Head} (hQ : HeadR Q) (hK : HeadR K) (s : Fin 288) : IsR (chead mmK Q K s) :=
  (IsR_mask hQ s).mul (IsR.sum _ _ (fun t _ => (IsR_attn hQ hK s t).mul (IsR_mask hK t)))

theorem IsR_comask (X : Feat) (hX : ∀ b h, HeadR (X b h)) (p : Fin 64 → Fin 64) (b : Fin 64) (s : Fin 288) :
    IsR (comask mmK X p b s) :=
  IsR_mmK _ (fun s' => IsR_sqrt_sum_sq Finset.univ (fun h => chead mmK (X b h) (X (p b) h) s')
    (fun h _ => IsR_chead (hX b h) (hX (p b) h) s')) s

theorem IsR_distK (X : Feat) (hX : ∀ b h, HeadR (X b h)) (p : Fin 64 → Fin 64) (b : Fin 64) (s : Fin 288) :
    IsR (distK X p b s) := by
  unfold distK
  have hterm : ∀ h d, IsR (mmK (nrm (X b h)) s * (X b h d s - warp (X b h) (X (p b) h) d s) + eps6) :=
    fun h d => ((IsR_mask (hX b h) s).mul ((hX b h d s).sub (IsR_warp (hX b h) (hX (p b) h) d s))).add IsR_eps6
  refine (IsR.sum _ _ (fun h _ => IsR.sum _ _ (fun d _ => (hterm h d).mul (hterm h d)))).sqrt ?_
  exact Finset.sum_nonneg (fun h _ => Finset.sum_nonneg (fun d _ => mul_self_nonneg_of (hterm h d)))

theorem IsR_tripK (X : Feat) (hX : ∀ b h, HeadR (X b h)) (p n : Fin 64 → Fin 64) (b : Fin 64) (s : Fin 288) :
    IsR (tripK X p n b s) :=
  ((((IsR_distK X hX p b s).sub (IsR_distK X hX n b s)).add IsR_cmargin)).max IsR_c0

/-- For real numbers `q − (m · w + (1 − m) · q) = m · (q − w)`. -/
theorem blend {q m w : EReal} (e : EReal) (hq : IsR q) (hm : IsR m) (hw : IsR w) :
    q - (m * w + (c1 - m) * q) + e = m * (q - w) + e := by
  obtain ⟨a, rfl⟩ := hq; obtain ⟨b, rfl⟩ := hm; obtain ⟨c, rfl⟩ := hw
  rw [c1_eq]
  simp only [← EReal.coe_mul, ← EReal.coe_sub, ← EReal.coe_add]
  congr 2
  ring

theorem distR_eq_distK (X : Feat) (hX : ∀ b h, HeadR (X b h)) (p : Fin 64 → Fin 64) (b : Fin 64) :
    distR X p b = distK X p b := by
  funext s
  unfold distR distK
  rw [mmR_eq]
  congr 1
  refine Finset.sum_congr rfl (fun h _ => Finset.sum_congr rfl (fun d _ => ?_))
  congr 1
  unfold reconH
  exact blend eps6 (hX b h d s) (IsR_mask (hX b h) s) (IsR_warp (hX b h) (hX (p b) h) d s)

theorem tripR_eq_tripK (X : Feat) (hX : ∀ b h, HeadR (X b h)) (p n : Fin 64 → Fin 64) :
    tripR X p n = tripK X p n := by
  funext b s
  unfold tripR tripK
  rw [distR_eq_distK X hX p b, distR_eq_distK X hX n b]

/-- On real inputs the sum over pairs of samples of products factors, position by position, into the product of the sums. -/
theorem lossR_eq_lossK (X : Feat) (hX : IsReal X) (p n : Fin 64 → Fin 64) : lossR X p n = lossK X p n := by
  have hX' : ∀ b h, HeadR (X b h) := fun b h d s => hX b h d s
  unfold lossR lossK
  rw [mmR_eq, tripR_eq_tripK X hX' p n]
  congr 1
  choose c hc using fun b s => IsR_comask X hX' p b s
  choose t ht using fun b s => IsR_tripK X hX' p n b s
  simp only [hc, ht, ← EReal.coe_mul, ← coe_sum]
  congr 1
  calc ∑ b : Fin 64, ∑ b' : Fin 64, ∑ s : Fin 288, c b s * t b' s
      = ∑ b : Fin 64, ∑ s : Fin 288, ∑ b' : Fin 64, c b s * t b' s :=
        Finset.sum_congr rfl (fun b _ => Finset.sum_comm)
    _ = ∑ s : Fin 288, ∑ b : Fin 64, ∑ b' : Fin 64, c b s * t b' s := Finset.sum_comm
    _ = ∑ s : Fin 288, (∑ b : Fin 64, c b s) * (∑ b : Fin 64, t b s) :=
        Finset.sum_congr rfl (fun s _ => (Finset.sum_mul_sum _ _ _ _).symm)

end Cert.Spec

end
-- ==== Proof.Pre.lean ====
import proofs.«429718_j54400055771394_3_alg».proof.Pre_finite_inputs
import proofs.«429718_j54400055771394_3_alg».proof.Proof.Gen.Pre_finite_inputs
import proofs.«429718_j54400055771394_3_alg».proof.Proof.Glue
import Idealize.ShloMosaic.Lib.ReduceAll
import Idealize.ShloMosaic.Lib.StableHlo.Predicate
import Idealize.ShloMosaic.Lib.ValueIdx

noncomputable section

namespace Cert.PreHand

open Idealize.ShloMosaic Idealize.ShloMosaic.ValueIdx Cert.Spec Cert.Glue

instance : Subsingleton Cert.Pre_finite_inputs.S_.Idx := ⟨fun a b => funext fun d => d.elim0⟩

theorem andi_apply {s : Shape} (a b : IVec s 1) (i : s.Idx) : andi a b i = IntOp.andi (a i) (b i) := rfl

/-- The precondition is six statements, each at every index of its array. -/
theorem pre_split {F : FTy → Type} [FloatOps F] (x0 x1 : FVec F SIn .f32) (x2 x3 : IVec STab 32)
    (h : Cert.Pre_finite_inputs.fn (F := F) x0 x1 x2 x3 = fun _ => 1#1) :
    (∀ i, FloatOps.cmpf .olt (FloatOps.hostAbsf (x0 i)) (FloatOps.ofBits (F := F) .f32 0x7F800000#32) = 1#1) ∧
    (∀ i, FloatOps.cmpf .olt (FloatOps.hostAbsf (x1 i)) (FloatOps.ofBits (F := F) .f32 0x7F800000#32) = 1#1) ∧
    (∀ i, IntOp.cmpi .sge (x2 i) 0#32 = 1#1) ∧ (∀ i, IntOp.cmpi .slt (x2 i) 64#32 = 1#1) ∧
    (∀ i, IntOp.cmpi .sge (x3 i) 0#32 = 1#1) ∧ (∀ i, IntOp.cmpi .slt (x3 i) 64#32 = 1#1) := by
  have e := congrFun h ValueIdx.ix0
  dsimp only [Cert.Pre_finite_inputs.fn, Cert.Pre_finite_inputs.fn_part1] at e
  simp only [andi_apply, IntOp.andi_eq_one] at e
  obtain ⟨⟨⟨⟨⟨h0, h1⟩, h2a⟩, h2b⟩, h3a⟩, h3b⟩ := e
  exact ⟨fun i => Host.reduce_andi_all _ _ _ _ _ h0 i, fun i => Host.reduce_andi_all _ _ _ _ _ h1 i,
    fun i => Host.reduce_andi_all _ _ _ _ _ h2a i, fun i => Host.reduce_andi_all _ _ _ _ _ h2b i,
    fun i => Host.reduce_andi_all _ _ _ _ _ h3a i, fun i => Host.reduce_andi_all _ _ _ _ _ h3b i⟩

/-- An extended real of absolute value below `+∞` is a real number. -/
theorem real_of_lt_inf (x : Ideal .f32)
    (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  rw [StableHlo.Predicate.ofBool_eq_one_iff, decide_eq_true_eq, max_lt_iff] at h
  induction x using EReal.rec with
  | bot => simp at h
  | coe r => exact ⟨r, rfl⟩
  | top => simp at h

/-- A word in `[0, 64)` as a signed word is below 64 as a natural number. -/
theorem toNat_lt_of_signed (w : BitVec 32) (h0 : IntOp.cmpi .sge w 0#32 = 1#1) (h1 : IntOp.cmpi .slt w 64#32 = 1#1) :
    w.toNat < 64 := by
  unfold IntOp.cmpi at h0 h1
  rw [StableHlo.Predicate.ofBool_eq_one_iff] at h0 h1
  simp only [BitVec.sle, BitVec.slt, decide_eq_true_eq] at h0 h1
  have e0 : (0#32 : BitVec 32).toInt = 0 := by decide
  have e64 : (64#32 : BitVec 32).toInt = 64 := by decide
  rw [e0] at h0
  rw [e64] at h1
  have hw := w.isLt
  have hi : w.toInt = if 2 * w.toNat < 2 ^ 32 then (w.toNat : ℤ) else (w.toNat : ℤ) - (2 ^ 32 : ℕ) :=
    BitVec.toInt_eq_toNat_cond w
  split_ifs at hi <;> omega

theorem real_of_pre (x0 x1 : FVec Ideal SIn .f32) (x2 x3 : IVec STab 32)
    (h : Cert.Pre_finite_inputs.fn (F := Ideal) x0 x1 x2 x3 = fun _ => 1#1) : IsReal (featOf x0 x1) := by
  obtain ⟨h0, h1, -⟩ := pre_split x0 x1 x2 x3 h
  intro b hd d s
  dsimp only [featOf]
  split
  · exact real_of_lt_inf _ (h0 _)
  · exact real_of_lt_inf _ (h1 _)

theorem range_of_pre {F : FTy → Type} [FloatOps F] (x0 x1 : FVec F SIn .f32) (x2 x3 : IVec STab 32)
    (h : Cert.Pre_finite_inputs.fn (F := F) x0 x1 x2 x3 = fun _ => 1#1) : InRange x2 ∧ InRange x3 := by
  obtain ⟨-, -, h2a, h2b, h3a, h3b⟩ := pre_split x0 x1 x2 x3 h
  exact ⟨fun b => toNat_lt_of_signed _ (h2a _) (h2b _), fun b => toNat_lt_of_signed _ (h3a _) (h3b _)⟩

end Cert.PreHand

end
-- ==== Proof.RefBase.lean ====
import proofs.«429718_j54400055771394_3_alg».proof.Proof.RefRead
import proofs.«429718_j54400055771394_3_alg».proof.Proof.Glue
import Idealize.ShloMosaic.Lib.ValueIdx
import Idealize.ShloMosaic.Lib.Pipeline.Value
import Idealize.ShloMosaic.PureOps.Ideal.Laws

noncomputable section

namespace Cert.ReferenceIdeal.Hand

open Idealize.ShloMosaic Idealize.ShloMosaic.ValueIdx Cert.ReferenceIdeal Cert.ReferenceIdeal.Gen Cert.ReferenceIdeal.Read Cert.Spec Cert.Glue

abbrev chan (h : Fin 8) (d : Fin 256) : Fin 2048 := ⟨h.val * 256 + d.val, by have := h.isLt; have := d.isLt; omega⟩
abbrev rowOf (s : Fin 288) : Fin 24 := ⟨s.val / 12, by have := s.isLt; omega⟩
abbrev colOf (s : Fin 288) : Fin 12 := ⟨s.val % 12, Nat.mod_lt _ (by decide)⟩

def cat (x0 x1 : FVec Ideal SIn .f32) (b : Fin 64) (c : Fin 2048) (y : Fin 24) (z : Fin 12) : EReal :=
  if hb : b.val < 32 then x0 (ix4 (⟨b.val, hb⟩ : Fin 32) c y z)
  else x1 (ix4 (⟨b.val - 32, by have := b.isLt; omega⟩ : Fin 32) c y z)

theorem featOf_eq_cat (x0 x1 : FVec Ideal SIn .f32) (b : Fin 64) (h : Fin 8) (d : Fin 256) (s : Fin 288) :
    featOf x0 x1 b h d s = cat x0 x1 b (chan h d) (rowOf s) (colOf s) := rfl

-- The concatenation along the samples reads the first argument below sample 32 and the second from there on.
theorem v0_at (x0 x1 : FVec Ideal SIn .f32) (b : Fin 64) (c : Fin 2048) (y : Fin 24) (z : Fin 12) :
    val_main_v0 (F := Ideal) x0 x1 (ix4 b c y z) = cat x0 x1 b c y z := by
  unfold val_main_v0 cat
  by_cases hb : b.val < 32
  · rw [dif_pos hb]
    exact concatenate_pair_apply_left (0 : Fin 4) x0 x1 _ (ix4 b c y z) rfl (ix4 (⟨b.val, hb⟩ : Fin 32) c y z)
      (fun a => by match a with | ⟨0, _⟩ | ⟨1, _⟩ | ⟨2, _⟩ | ⟨3, _⟩ => rfl)
  · rw [dif_neg hb]
    exact concatenate_pair_apply_right (0 : Fin 4) x0 x1 _ (ix4 b c y z) rfl rfl
      (ix4 (⟨b.val - 32, by have := b.isLt; omega⟩ : Fin 32) c y z)
      (fun a ha => by match a, ha with | ⟨0, _⟩, ha => exact absurd rfl ha | ⟨1, _⟩, _ | ⟨2, _⟩, _ | ⟨3, _⟩, _ => rfl)
      (by show b.val - 32 + 32 = b.val; omega)

abbrev G8 : GatherDims S64x2048x24x12 S64x1 S64x2048x24x12 := gather_S64x2048x24x12_S64x1_S64x2048x24x12_123_0_n_n_0_1_120482412

-- Axis 0 of the operand is read at the start index, signed and clamped.
theorem G8_axis0 (idx : IVec S64x1 32) (b : Fin 64) (c : Fin 2048) (y : Fin 24) (z : Fin 12) :
    (G8.operandIdx (ix4 b c y z) idx (0 : Fin 4)).val = min (idx (ix2 b (0 : Fin 1))).toInt.toNat 63 := by
  show G8.start (ix4 b c y z) idx 0 + G8.batchCoord (ix4 b c y z) 0 + G8.offCoord (ix4 b c y z) 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 4) ∈ G8.startIndexMap from List.mem_singleton.mpr rfl),
    show G8.siIdx (ix4 b c y z) ⟨List.idxOf (0 : Fin 4) G8.startIndexMap,
      List.idxOf_lt_length_iff.2 (List.mem_singleton.mpr rfl)⟩ = ix2 b (0 : Fin 1) from eq_ix2 _]
  rfl

-- The other axes are read at the result's own coordinates.
theorem gather_apply {α : Type} (x : S64x2048x24x12.Idx → α) (idx : IVec S64x1 32) (b : Fin 64) (c : Fin 2048) (y : Fin 24) (z : Fin 12) :
    Host.gather G8 x idx (ix4 b c y z)
      = x (ix4 (⟨min (idx (ix2 b (0 : Fin 1))).toInt.toNat 63, by omega⟩ : Fin 64) c y z) := by
  unfold Host.gather
  congr 1
  funext a
  refine Fin.ext ?_
  fin_cases a
  · exact G8_axis0 idx b c y z
  all_goals
    show G8.start _ idx _ + G8.batchCoord _ _ + G8.offCoord _ _ = _
    rw [GatherDims.batchCoord_eq_zero _ _ _ List.not_mem_nil]
    unfold GatherDims.start GatherDims.offCoord
    rw [dif_neg, dif_pos, Nat.zero_add] <;> first | rfl | decide

theorem wrap_word (w : BitVec 32) (hw : w.toNat < 64) :
    Scalar.select (IntOp.cmpi .slt w 0#32) (IntOp.addi w 64#32) w = w := by
  have hlt : w.slt 0#32 = false := by
    simp only [BitVec.slt, BitVec.toInt_zero, decide_eq_false_iff_not, Int.not_lt]
    rw [BitVec.toInt_eq_toNat_cond, if_pos (by omega)]
    exact Int.natCast_nonneg _
  show (if BitVec.ofBool (w.slt 0#32) = 1 then _ else _) = _
  rw [hlt]
  rfl

theorem clamp_word (w : BitVec 32) (hw : w.toNat < 64) : w.toNat % 64 = min w.toInt.toNat 63 := by
  rw [BitVec.toInt_eq_toNat_cond, if_pos (by omega), Int.toNat_natCast]; omega

theorem max_ninf (x : EReal) : max ninf x = x := by
  rw [show ninf = ⊥ by simp [Ideal.ofBits, Ideal.ieee]]; exact max_eq_right bot_le

theorem hostMax_at {s t : Shape} {a : Fin s.rank} (x : s.Idx → EReal) (init : S_.Idx → EReal)
    (h' : s.ReducesTo [a] t) (h : s.Reduces [a] t) (j : t.Idx) :
    Host.reduce (FloatOps.maximumf (F := Ideal) (φ := .f32)) x init h' h_S_ j
      = (Finset.univ : Finset (Fin (s.size a))).fold max (init (Shape.Idx.first h_S_)) (fun k => x (h.lift j k)) :=
  Host.reduce_eq_fold_single _ x init h' h h_S_ j

theorem hostMin_at {s t : Shape} {a : Fin s.rank} (x : s.Idx → EReal) (init : S_.Idx → EReal)
    (h' : s.ReducesTo [a] t) (h : s.Reduces [a] t) (j : t.Idx) :
    Host.reduce (FloatOps.minimumf (F := Ideal) (φ := .f32)) x init h' h_S_ j
      = (Finset.univ : Finset (Fin (s.size a))).fold min (init (Shape.Idx.first h_S_)) (fun k => x (h.lift j k)) :=
  Host.reduce_eq_fold_single _ x init h' h h_S_ j

theorem red_d3 : S64x8x288x288.Reduces [3] S64x8x288 := by decide
theorem red_d2 : S64x8x288.Reduces [2] S64x8 := by decide

theorem zero_f32 : FloatOps.ofBits (F := Ideal) .f32 0x00000000#32 = 0 := Ideal.ofBits_zero_f32

variable {α : Type}

-- Splitting the channels into heads and features keeps the row-major position.
theorem split_at (x : S64x2048x24x12.Idx → α) (hc : S64x2048x24x12.ShapeCasts S64x8x256x24x12)
    (b : Fin 64) (h : Fin 8) (d : Fin 256) (y : Fin 24) (z : Fin 12) :
    shapeCast _ x hc (ix5 b h d y z) = x (ix4 b (chan h d) y z) :=
  shapeCast_apply x hc _ _ (by
    rewrite [Shape.rowMajor_val_four, Shape.rowMajor_val_five]
    show ((b.val * 2048 + (h.val * 256 + d.val)) * 24 + y.val) * 12 + z.val
      = (((b.val * 8 + h.val) * 256 + d.val) * 24 + y.val) * 12 + z.val
    omega)

-- Flattening the grid to 288 positions keeps the row-major position.
theorem flat_at (x : S64x8x256x24x12.Idx → α) (hc : S64x8x256x24x12.ShapeCasts S64x8x256x288)
    (b : Fin 64) (h : Fin 8) (d : Fin 256) (s : Fin 288) :
    shapeCast _ x hc (ix4 b h d s) = x (ix5 b h d (rowOf s) (colOf s)) :=
  shapeCast_apply x hc _ _ (by
    rewrite [Shape.rowMajor_val_five, Shape.rowMajor_val_four]
    show (((b.val * 8 + h.val) * 256 + d.val) * 24 + s.val / 12) * 12 + s.val % 12
      = ((b.val * 8 + h.val) * 256 + d.val) * 288 + s.val
    omega)

theorem v1_at (x0 x1 : FVec Ideal SIn .f32) (b : Fin 64) (h : Fin 8) (d : Fin 256) (y : Fin 24) (z : Fin 12) :
    val_main_v1 (F := Ideal) x0 x1 (ix5 b h d y z) = cat x0 x1 b (chan h d) y z := by
  unfold val_main_v1
  rw [split_at, v0_at]

variable (x0 x1 : FVec Ideal SIn .f32)

theorem v31_at (b : Fin 64) (h : Fin 8) (d : Fin 256) (s : Fin 288) :
    val_main_v31 (F := Ideal) x0 x1 (ix4 b h d s) = featOf x0 x1 b h d s := by
  unfold val_main_v31
  rw [flat_at, v1_at]; rfl

theorem v32_at (i : S64x8x288x256.Idx) :
    val_main_v32 (F := Ideal) x0 x1 i = featOf x0 x1 (i 0) (i 1) (i 3) (i 2) := by
  rw [val_main_v32_apply, eq_ix4 (idx_main_v32 i)]
  exact v31_at x0 x1 _ _ _ _

-- A gather of whole samples of the concatenated input at a start array holding the table's words reads the samples the table names.
theorem gathered_at (p : IVec STab 32) (hp : InRange p) (w : IVec S64x1 32) (b : Fin 64)
    (hw : w (ix2 b (0 : Fin 1)) = p (ix1 b)) (c : Fin 2048) (y : Fin 24) (z : Fin 12) :
    Host.gather G8 (val_main_v0 (F := Ideal) x0 x1) w (ix4 b c y z) = cat x0 x1 (idxOf p b) c y z := by
  rw [gather_apply, v0_at]
  refine congrArg (cat x0 x1 · c y z) (Fin.ext ?_)
  show min (w (ix2 b (0 : Fin 1))).toInt.toNat 63 = (p (ix1 b)).toNat % 64
  rw [hw]
  exact (clamp_word _ (hp b)).symm

end Cert.ReferenceIdeal.Hand

end
-- ==== Proof.RefNeg.lean ====
import proofs.«429718_j54400055771394_3_alg».proof.Proof.RefRead
import proofs.«429718_j54400055771394_3_alg».proof.Proof.Glue

noncomputable section

namespace Cert.ReferenceIdeal.Hand.Neg

open Idealize.ShloMosaic Idealize.ShloMosaic.ValueIdx Cert.ReferenceIdeal Cert.ReferenceIdeal.Gen Cert.ReferenceIdeal.Read Cert.Spec Cert.Glue

-- The negative branch runs the positive branch's stages on the other table.
theorem warp_eq (x0 x1 : FVec Ideal SIn .f32) (x3 : IVec STab 32) :
    val_main_v125 (F := Ideal) x0 x1 x3 = val_main_v86 (F := Ideal) x0 x1 x3 := rfl

end Cert.ReferenceIdeal.Hand.Neg

end
-- ==== Proof.RefCore.lean ====
import proofs.«429718_j54400055771394_3_alg».proof.Proof.RefRead
import proofs.«429718_j54400055771394_3_alg».proof.Proof.Glue
import proofs.«429718_j54400055771394_3_alg».proof.Proof.RefBase
import proofs.«429718_j54400055771394_3_alg».proof.Proof.RefNeg
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Hand

open Idealize.ShloMosaic Idealize.ShloMosaic.ValueIdx Cert.ReferenceIdeal Cert.ReferenceIdeal.Gen Cert.ReferenceIdeal.Read Cert.Spec Cert.Glue

variable (x0 x1 : FVec Ideal SIn .f32)

theorem call0_v1_at (b : Fin 64) (h : Fin 8) (y : Fin 24) (z : Fin 12) :
    val_main_call0_v1 (F := Ideal) x0 x1 (ix4 b h y z)
      = ∑ d : Fin 256, cat x0 x1 b (chan h d) y z * cat x0 x1 b (chan h d) y z := by
  rw [val_main_call0_v1_apply, val_main_call0_cst_apply, zero_f32, zero_add]
  refine Finset.sum_congr rfl fun k _ => ?_
  rw [val_main_call0_v0_apply, eq_ix5 (idx_main_call0_v1 _ k)]
  exact congrArg₂ (· * ·) (v1_at x0 x1 b h k y z) (v1_at x0 x1 b h k y z)

theorem v19_at (b : Fin 64) (h : Fin 8) (s : Fin 288) :
    val_main_v19 (F := Ideal) x0 x1 (ix3 b h s) = nrm (featOf x0 x1 b h) s := by
  unfold val_main_v19
  rw [shapeCast_apply _ _ _ (ix4 b h (rowOf s) (colOf s)) (by
      rewrite [Shape.rowMajor_val_four, Shape.rowMajor_val_three]
      show ((b.val * 8 + h.val) * 24 + s.val / 12) * 12 + s.val % 12 = (b.val * 8 + h.val) * 288 + s.val
      omega), val_main_v18_apply, call0_v1_at]; rfl

theorem v20_at (j : S64x8.Idx) :
    val_main_v20 (F := Ideal) x0 x1 j = vmin (nrm (featOf x0 x1 (j 0) (j 1))) := by
  unfold val_main_v20
  rw [hostMin_at _ _ _ red_d2]
  exact congrArg vmin (funext fun t => (congrArg (val_main_v19 (F := Ideal) x0 x1) (eq_ix3 _)).trans (v19_at x0 x1 _ _ t))

theorem v23_at (b : Fin 64) (h : Fin 8) (s : Fin 288) :
    val_main_v23 (F := Ideal) x0 x1 (ix3 b h s) = nrm (featOf x0 x1 b h) s - vmin (nrm (featOf x0 x1 b h)) := by
  rw [val_main_v23_apply, v19_at, val_main_v22_apply, val_main_v21_apply, v20_at]; rfl

theorem v24_at (j : S64x8.Idx) :
    val_main_v24 (F := Ideal) x0 x1 j
      = vmax (fun s => nrm (featOf x0 x1 (j 0) (j 1)) s - vmin (nrm (featOf x0 x1 (j 0) (j 1)))) := by
  unfold val_main_v24
  rw [hostMax_at _ _ _ red_d2]
  exact congrArg vmax (funext fun t => (congrArg (val_main_v23 (F := Ideal) x0 x1) (eq_ix3 _)).trans (v23_at x0 x1 _ _ t))

-- The reference's min-max normalisation of the norms.
theorem ref_mask (b : Fin 64) (h : Fin 8) (s : Fin 288) :
    val_main_v30 (F := Ideal) x0 x1
        (ix5 b h (0 : Fin 1) (⟨s.val / 12, by have := s.isLt; omega⟩ : Fin 24) (⟨s.val % 12, Nat.mod_lt _ (by decide)⟩ : Fin 12))
      = mmR (nrm (featOf x0 x1 b h)) s := by
  unfold val_main_v30
  rw [shapeCast_apply _ _ _ (ix3 b h s) (by
      rewrite [Shape.rowMajor_val_three, Shape.rowMajor_val_five]
      show (b.val * 8 + h.val) * 288 + s.val = (((b.val * 8 + h.val) * 1 + 0) * 24 + s.val / 12) * 12 + s.val % 12
      omega), val_main_v29_apply, v23_at, val_main_v28_apply, val_main_v27_apply,
    val_main_v25_apply, v24_at, val_main_v26_apply, val_main_cst_4_apply]; rfl

-- The anchor's norms and unit vectors, position by feature.
theorem v35_at (i : S64x8x288x1.Idx) :
    val_main_v35 (F := Ideal) x0 x1 i = nrm (featOf x0 x1 (i 0) (i 1)) (i 2) := by
  rw [val_main_v35_apply, val_main_call1_v2_apply, val_main_call1_v1_apply, val_main_call1_cst_apply, zero_f32, zero_add]
  refine congrArg Ideal.sqrt (Finset.sum_congr rfl fun k _ => ?_)
  rw [val_main_call1_v0_apply, v32_at]; rfl

theorem v39_at (i : S64x8x288x256.Idx) :
    val_main_v39 (F := Ideal) x0 x1 i = unit (featOf x0 x1 (i 0) (i 1)) (i 3) (i 2) := by
  rw [val_main_v39_apply, v32_at, val_main_v38_apply, val_main_v37_apply, v35_at, val_main_v36_apply,
    val_main_cst_5_apply]; rfl

section Partner
variable (x2 : IVec STab 32) (h2 : InRange x2)
include h2

-- The gathered partner is the sample the table names: its word is in range, so neither the wrap nor the clamp moves it.
theorem v9_at (b : Fin 64) (h : Fin 8) (d : Fin 256) (y : Fin 24) (z : Fin 12) :
    val_main_v9 (F := Ideal) x0 x1 x2 (ix5 b h d y z) = cat x0 x1 (idxOf x2 b) (chan h d) y z := by
  unfold val_main_v9
  rw [split_at]
  unfold val_main_v8
  refine gathered_at x0 x1 x2 h2 _ b ?_ _ y z
  rw [val_main_v7_apply, show idx_main_v7 (ix2 b (0 : Fin 1)) = ix1 b from eq_ix1 _, val_main_v6_apply,
    val_main_v3_apply, val_main_v5_apply, val_main_v2_apply, val_main_v4_apply, val_main_c_apply, val_main_c_0_apply]
  exact wrap_word _ (h2 b)

theorem v33_at (b : Fin 64) (h : Fin 8) (d : Fin 256) (s : Fin 288) :
    val_main_v33 (F := Ideal) x0 x1 x2 (ix4 b h d s) = featOf x0 x1 (idxOf x2 b) h d s := by
  unfold val_main_v33
  rw [flat_at, v9_at x0 x1 x2 h2]; rfl

theorem v85_at (b : Fin 64) (h : Fin 8) (d : Fin 256) (s : Fin 288) :
    val_main_v85 (F := Ideal) x0 x1 x2 (ix4 b h d s) = featOf x0 x1 (idxOf x2 b) h d s :=
  v33_at x0 x1 x2 h2 b h d s

theorem v34_at (i : S64x8x288x256.Idx) :
    val_main_v34 (F := Ideal) x0 x1 x2 i = featOf x0 x1 (idxOf x2 (i 0)) (i 1) (i 3) (i 2) := by
  rw [val_main_v34_apply, eq_ix4 (idx_main_v34 i)]
  exact v33_at x0 x1 x2 h2 _ _ _ _

theorem v40_at (i : S64x8x288x1.Idx) :
    val_main_v40 (F := Ideal) x0 x1 x2 i = nrm (featOf x0 x1 (idxOf x2 (i 0)) (i 1)) (i 2) := by
  rw [val_main_v40_apply, val_main_call2_v2_apply, val_main_call2_v1_apply, val_main_call2_cst_apply, zero_f32, zero_add]
  refine congrArg Ideal.sqrt (Finset.sum_congr rfl fun k _ => ?_)
  rw [val_main_call2_v0_apply, v34_at x0 x1 x2 h2]; rfl

theorem v44_at (i : S64x8x288x256.Idx) :
    val_main_v44 (F := Ideal) x0 x1 x2 i = unit (featOf x0 x1 (idxOf x2 (i 0)) (i 1)) (i 3) (i 2) := by
  rw [val_main_v44_apply, v34_at x0 x1 x2 h2, val_main_v43_apply, val_main_v42_apply, v40_at x0 x1 x2 h2,
    val_main_v41_apply, val_main_cst_6_apply]; rfl

theorem v47_at (i : S64x8x288x288.Idx) :
    val_main_v47 (F := Ideal) x0 x1 x2 i
      = sim (featOf x0 x1 (i 0) (i 1)) (featOf x0 x1 (idxOf x2 (i 0)) (i 1)) (i 2) (i 3) := by
  have e : val_main_v45 (F := Ideal) x0 x1 x2 i = ∑ d : Fin 256,
      unit (featOf x0 x1 (i 0) (i 1)) d (i 2) * unit (featOf x0 x1 (idxOf x2 (i 0)) (i 1)) d (i 3) := by
    rw [val_main_v45_apply]
    refine Finset.sum_congr rfl fun k _ => ?_
    rw [v39_at, v44_at x0 x1 x2 h2]; rfl
  rw [val_main_v47_apply, val_main_v46_apply, val_main_cst_7_apply, e]
  exact mul_comm _ _

-- The row maximum; the reference's further maximum against minus infinity changes nothing.
theorem v50_at (j : S64x8x288.Idx) :
    val_main_v50 (F := Ideal) x0 x1 x2 j
      = vmax (sim (featOf x0 x1 (j 0) (j 1)) (featOf x0 x1 (idxOf x2 (j 0)) (j 1)) (j 2)) := by
  rw [val_main_v50_apply, val_main_v49_apply, val_main_cst_9_apply]
  unfold val_main_v48
  rw [hostMax_at _ _ _ red_d3]
  exact (max_ninf _).trans (congrArg vmax (funext fun t => v47_at x0 x1 x2 h2 _))

theorem v54_at (i : S64x8x288x288.Idx) :
    val_main_v54 (F := Ideal) x0 x1 x2 i
      = Ideal.exp (sim (featOf x0 x1 (i 0) (i 1)) (featOf x0 x1 (idxOf x2 (i 0)) (i 1)) (i 2) (i 3)
          - vmax (sim (featOf x0 x1 (i 0) (i 1)) (featOf x0 x1 (idxOf x2 (i 0)) (i 1)) (i 2))) := by
  rw [val_main_v54_apply, val_main_v53_apply, v47_at x0 x1 x2 h2, val_main_v52_apply, val_main_v51_apply,
    v50_at x0 x1 x2 h2]; rfl

theorem v58_at (i : S64x8x288x288.Idx) :
    val_main_v58 (F := Ideal) x0 x1 x2 i
      = attn (featOf x0 x1 (i 0) (i 1)) (featOf x0 x1 (idxOf x2 (i 0)) (i 1)) (i 2) (i 3) := by
  rw [val_main_v58_apply, v54_at x0 x1 x2 h2, val_main_v57_apply, val_main_v56_apply, val_main_v55_apply,
    val_main_cst_10_apply, zero_f32, zero_add]
  refine congrArg (Ideal.div _) (Finset.sum_congr rfl fun k _ => ?_)
  rw [v54_at x0 x1 x2 h2]; rfl

theorem ref_attn_pos (b : Fin 64) (h : Fin 8) (s t : Fin 288) :
    val_main_v58 (F := Ideal) x0 x1 x2 (ix4 b h s t)
      = attn (featOf x0 x1 b h) (featOf x0 x1 (idxOf x2 b) h) s t :=
  v58_at x0 x1 x2 h2 _

theorem ref_warp_pos (b : Fin 64) (h : Fin 8) (d : Fin 256) (s : Fin 288) :
    val_main_v86 (F := Ideal) x0 x1 x2 (ix4 b h d s)
      = warp (featOf x0 x1 b h) (featOf x0 x1 (idxOf x2 b) h) d s := by
  rw [val_main_v86_apply]
  refine Finset.sum_congr rfl fun k _ => ?_
  rw [v58_at x0 x1 x2 h2, show lidx_main_v86 (ix4 b h d s) k = ix4 b h d k from eq_ix4 _, v85_at x0 x1 x2 h2]; rfl

end Partner

theorem ref_warp_neg (x3 : IVec STab 32) (h3 : InRange x3) (b : Fin 64) (h : Fin 8) (d : Fin 256) (s : Fin 288) :
    val_main_v125 (F := Ideal) x0 x1 x3 (ix4 b h d s)
      = warp (featOf x0 x1 b h) (featOf x0 x1 (idxOf x3 b) h) d s :=
  (congrFun (Neg.warp_eq x0 x1 x3) _).trans (ref_warp_pos x0 x1 x3 h3 b h d s)

end Cert.ReferenceIdeal.Hand

end
-- ==== Proof.RefRecon.lean ====
import proofs.«429718_j54400055771394_3_alg».proof.Proof.RefCore
import Idealize.ShloMosaic.Lib.ValueIdxCoords

noncomputable section

namespace Cert.ReferenceIdeal.Hand

open Idealize.ShloMosaic Idealize.ShloMosaic.ValueIdx Cert.ReferenceIdeal Cert.ReferenceIdeal.Gen Cert.ReferenceIdeal.Read Cert.Spec Cert.Glue

variable (x0 x1 : FVec Ideal SIn .f32) (b : Fin 64) (h : Fin 8) (d : Fin 256) (y : Fin 24) (z : Fin 12)

namespace Recon

/-- Cell `(y, z)` of the 24 × 12 grid is position `12 y + z`. -/
abbrev pos : Fin 288 := ⟨y.val * 12 + z.val, by omega⟩

/-- Arrays over sample × channel × row × column that agree at every coordinate tuple are equal. -/
theorem ext_ix4 {α : Type} {f g : SOut.Idx → α}
    (hfg : ∀ (b : Fin 64) (k : Fin 2048) (y : Fin 24) (z : Fin 12), f (ix4 b k y z) = g (ix4 b k y z)) : f = g :=
  funext fun i => by rw [eq_ix4 i]; exact hfg _ _ _ _

/-- Position `12 y + z` lies in row `y`, column `z`. -/
theorem at_cell {α : Type} (F : Fin 24 → Fin 12 → α) : F (rowOf (pos y z)) (colOf (pos y z)) = F y z := by
  congr 1 <;> refine Fin.ext ?_ <;> dsimp only <;> omega

theorem mask_cell : val_main_v30 (F := Ideal) x0 x1 (ix5 b h (0 : Fin 1) y z) = mmR (nrm (featOf x0 x1 b h)) (pos y z) :=
  (at_cell y z fun y z => val_main_v30 (F := Ideal) x0 x1 (ix5 b h (0 : Fin 1) y z)).symm.trans (ref_mask x0 x1 b h _)

theorem v1_cell : val_main_v1 (F := Ideal) x0 x1 (ix5 b h d y z) = featOf x0 x1 b h d (pos y z) :=
  (v1_at x0 x1 b h d y z).trans (at_cell y z (cat x0 x1 b (chan h d))).symm

/-- Channel `k` is head `k / 256`, feature `k % 256`. -/
theorem idx95 (k : Fin 2048) :
    idx_main_v95 (ix4 b k y z) = ix5 b ⟨k.val / 256, by omega⟩ ⟨k.val % 256, by omega⟩ y z := by
  funext a; refine Fin.ext ?_; fin_cases a <;> simp [ix5] <;> omega

theorem idx87 : idx_main_v87 (ix5 b h d y z) = ix4 b h d (pos y z) := by
  funext a; refine Fin.ext ?_; fin_cases a <;> simp [ix4] <;> omega

theorem idx88 : idx_main_v88 (ix5 b h d y z) = ix5 b h (0 : Fin 1) y z := by
  funext a; fin_cases a <;> rfl

/-- The blend `m · w + (1 − m) · q` of the sample `q` and its warp `w` against `p` by the mask `m` is the reconstruction. -/
theorem blend (p : Fin 64 → Fin 64) (W : FVec Ideal S64x8x256x288 .f32)
    (hW : ∀ b h d s, W (ix4 b h d s) = warp (featOf x0 x1 b h) (featOf x0 x1 (p b) h) d s) (k : Fin 2048) :
    val_main_v30 (F := Ideal) x0 x1 (idx_main_v88 (idx_main_v95 (ix4 b k y z))) * W (idx_main_v87 (idx_main_v95 (ix4 b k y z)))
        + (c1 - val_main_v30 (F := Ideal) x0 x1 (idx_main_v88 (idx_main_v95 (ix4 b k y z))))
          * val_main_v1 (F := Ideal) x0 x1 (idx_main_v95 (ix4 b k y z))
      = reconOut mmR (featOf x0 x1) p (ix4 b k y z) := by
  rw [idx95, idx88, idx87, mask_cell, hW, v1_cell]
  rfl

end Recon

open Recon

theorem ref_recon (x2 : IVec STab 32) (h2 : InRange x2) :
    val_main_v95 (F := Ideal) x0 x1 x2 = reconOut mmR (featOf x0 x1) (idxOf x2) := by
  refine ext_ix4 fun b k y z => ?_
  rw [val_main_v95_apply, val_main_v94_apply, val_main_v89_apply, val_main_v93_apply, val_main_v88_apply,
    val_main_v87_apply, val_main_v92_apply, val_main_v91_apply, val_main_v90_apply, val_main_cst_16_apply]
  exact blend x0 x1 _ _ _ _ _ (ref_warp_pos x0 x1 x2 h2) _

theorem ref_recon_neg (x3 : IVec STab 32) (h3 : InRange x3) :
    val_main_v134 (F := Ideal) x0 x1 x3 = reconOut mmR (featOf x0 x1) (idxOf x3) := by
  refine ext_ix4 fun b k y z => ?_
  rw [val_main_v134_apply, val_main_v133_apply, val_main_v128_apply, val_main_v132_apply, val_main_v127_apply,
    val_main_v126_apply, val_main_v131_apply, val_main_v130_apply, val_main_v129_apply, val_main_cst_23_apply]
  exact blend x0 x1 _ _ _ _ _ (ref_warp_neg x0 x1 x3 h3) _

end Cert.ReferenceIdeal.Hand

end
-- ==== Proof.RefComask.lean ====
import proofs.«429718_j54400055771394_3_alg».proof.Proof.RefCore
import Idealize.ShloMosaic.Lib.ValueIdxCoords

noncomputable section

namespace Cert.ReferenceIdeal.Hand

open Idealize.ShloMosaic Idealize.ShloMosaic.ValueIdx Cert.ReferenceIdeal Cert.ReferenceIdeal.Gen Cert.ReferenceIdeal.Read Cert.Spec Cert.Glue

namespace Comask

variable (x0 x1 : FVec Ideal SIn .f32) (x2 : IVec STab 32) (b : Fin 64) (h : Fin 8) (s t : Fin 288)

/-- The gather along the sample axis reads row `r` when sample `b`'s start word, signed and clamped into [0, 63], is `r`. -/
theorem gather_cell {α : Type} (x : S64x8x1x24x12.Idx → α) (idx : IVec S64x1 32) (y : Fin 24) (z : Fin 12) (r : Fin 64)
    (hr : r.val = min (idx (ix2 b (0 : Fin 1))).toInt.toNat 63) :
    Host.gather gather_S64x8x1x24x12_S64x1_S64x8x1x24x12_1234_0_n_n_0_1_1812412 x idx (ix5 b h (0 : Fin 1) y z)
      = x (ix5 r h (0 : Fin 1) y z) := by
  unfold Host.gather
  congr 1
  funext a; refine Fin.ext ?_
  fin_cases a <;> simp [GatherDims.operandIdx, GatherDims.start, GatherDims.offCoord, GatherDims.batchCoord,
    gather_S64x8x1x24x12_S64x1_S64x8x1x24x12_1234_0_n_n_0_1_1812412, GatherDims.sKept, Shape.kept] <;>
    first | rfl | (rw [hr]; congr 3; exact congrArg idx (funext fun k => by fin_cases k <;> rfl))

theorem idx64 : idx_main_v64 (ix2 b (0 : Fin 1)) = ix1 b := by
  funext a; fin_cases a <;> rfl

/-- The start word of sample `b` is the table's word: the wrap of negative words leaves a word below 64 alone. -/
theorem start_word (h2 : InRange x2) : val_main_v64 (F := Ideal) x2 (ix2 b (0 : Fin 1)) = x2 (ix1 b) := by
  rw [val_main_v64_apply, idx64, val_main_v63_apply, val_main_v60_apply, val_main_v62_apply, val_main_v59_apply,
    val_main_v61_apply, val_main_c_11_apply, val_main_c_12_apply]
  exact wrap_word _ (h2 b)

/-- The gathered mask is the partner's mask. -/
theorem partner_mask (h2 : InRange x2) (y : Fin 24) (z : Fin 12) :
    val_main_v65 (F := Ideal) x0 x1 x2 (ix5 b h (0 : Fin 1) y z)
      = val_main_v30 (F := Ideal) x0 x1 (ix5 (idxOf x2 b) h (0 : Fin 1) y z) :=
  gather_cell b h _ _ y z _ ((clamp_word _ (h2 b)).trans (by rw [start_word x2 b h2]))

theorem idx67 : idx_main_v67 (ix4 b h t (0 : Fin 1)) = ix4 b h (0 : Fin 1) t := by
  funext a; fin_cases a <;> rfl

/-- Position `t` in the split of the positions into the grid is cell `(t / 12, t % 12)`. -/
theorem idx66 : idx_main_v66 (ix4 b h (0 : Fin 1) t) = ix5 b h (0 : Fin 1) (rowOf t) (colOf t) := by
  funext a; refine Fin.ext ?_; fin_cases a <;> simp [ix5] <;> omega

theorem idx66_67 : idx_main_v66 (idx_main_v67 (ix4 b h t (0 : Fin 1))) = ix5 b h (0 : Fin 1) (rowOf t) (colOf t) := by
  rw [idx67, idx66]

theorem idx68_69 : idx_main_v68 (idx_main_v69 (ix4 b h t (0 : Fin 1))) = ix5 b h (0 : Fin 1) (rowOf t) (colOf t) :=
  idx66_67 b h t

theorem idx72 : idx_main_v72 (ix3 b h s) = ix4 b h s (0 : Fin 1) := by
  funext a; refine Fin.ext ?_; fin_cases a <;> simp [ix4] <;> omega

theorem idx84 : idx_main_v84 (ix4 b (0 : Fin 1) (rowOf s) (colOf s)) = ix2 b s := by
  funext a; refine Fin.ext ?_; fin_cases a <;> simp [ix2] <;> omega

theorem lidx70 : lidx_main_v70 (ix4 b h s (0 : Fin 1)) t = ix4 b h s t := by
  funext a; fin_cases a <;> rfl

theorem ridx70 : ridx_main_v70 (ix4 b h s (0 : Fin 1)) t = ix4 b h t (0 : Fin 1) := by
  funext a; fin_cases a <;> rfl

theorem idx_call3 (k : Fin 8) : idx_main_call3_v1 (ix2 b s) k = ix3 b k s := by
  funext a; fin_cases a <;> rfl

theorem idx76 : idx_main_v75 (idx_main_v76 (ix2 b s)) = ix1 b := by
  funext a; fin_cases a <;> rfl

theorem idx82 : idx_main_v79 (idx_main_v82 (ix2 b s)) = ix1 b := idx76 b s

theorem lift_row (hr : S64x288.Reduces [1] S64) : hr.lift (ix1 b) s = ix2 b s := by
  funext a; fin_cases a <;> rfl

/-- A reduction of a 64 × 288 array along its rows folds the row of sample `b`. -/
theorem fold_row (f : EReal → EReal → EReal) [Std.Commutative f] [Std.Associative f] (x : S64x288.Idx → EReal)
    (init : S_.Idx → EReal) :
    Host.reduce f x init reducesTo_S64x288_S64_d1 h_S_ (ix1 b)
      = (Finset.univ : Finset (Fin 288)).fold f (init (Shape.Idx.first h_S_)) fun s => x (ix2 b s) := by
  rw [Host.reduce_eq_fold_single f x init reducesTo_S64x288_S64_d1 (by decide) h_S_]
  exact congrArg (fun g => Finset.fold f _ g Finset.univ) (funext fun s => congrArg x (lift_row b s _))

/-- `mask · (attention · partner's mask)` at head `h`, position `s`. -/
theorem chead_read (h2 : InRange x2) : val_main_v72 (F := Ideal) x0 x1 x2 (ix3 b h s)
    = chead mmR (featOf x0 x1 b h) (featOf x0 x1 (idxOf x2 b) h) s := by
  rw [val_main_v72_apply, idx72, val_main_v71_apply, val_main_v67_apply, val_main_v66_apply, idx66_67, ref_mask,
    val_main_v70_apply]
  unfold chead
  refine congrArg (_ * ·) (Finset.sum_congr rfl fun t _ => ?_)
  rw [lidx70, ridx70, ref_attn_pos x0 x1 x2 h2, val_main_v69_apply, val_main_v68_apply, idx68_69,
    partner_mask x0 x1 x2 b h h2, ref_mask]

/-- The norm over the eight heads at sample `b`, position `s`. -/
theorem norm_read (h2 : InRange x2) : val_main_v73 (F := Ideal) x0 x1 x2 (ix2 b s)
    = Ideal.sqrt (∑ h : Fin 8, sq (chead mmR (featOf x0 x1 b h) (featOf x0 x1 (idxOf x2 b) h) s)) := by
  rw [val_main_v73_apply, val_main_call3_v1_apply, val_main_call3_cst_apply, Ideal.hostUnary_sqrt_def, Ideal.ofBits_def,
    Ideal.ofBits_zero_f32, zero_add]
  simp only [idx_call3, val_main_call3_v0_apply, chead_read x0 x1 x2 _ _ _ h2]
  rfl

/-- The row shifted by its minimum. -/
theorem shifted_read : val_main_v77 (F := Ideal) x0 x1 x2 (ix2 b s)
    = val_main_v73 (F := Ideal) x0 x1 x2 (ix2 b s) - vmin fun s' => val_main_v73 (F := Ideal) x0 x1 x2 (ix2 b s') := by
  rw [val_main_v77_apply, val_main_v76_apply, val_main_v75_apply, idx76]
  unfold val_main_v74
  rw [fold_row]
  rfl

end Comask

open Comask

theorem ref_comask (x0 x1 : FVec Ideal SIn .f32) (x2 : IVec STab 32) (h2 : InRange x2) (b : Fin 64) (s : Fin 288) :
    val_main_v84 (F := Ideal) x0 x1 x2 (ix4 b (0 : Fin 1) (rowOf s) (colOf s))
      = comask mmR (featOf x0 x1) (idxOf x2) b s := by
  rw [val_main_v84_apply, idx84, val_main_v83_apply, val_main_v82_apply, val_main_v81_apply, val_main_v79_apply, idx82,
    val_main_v80_apply, val_main_cst_15_apply]
  unfold val_main_v78
  rw [fold_row]
  simp only [shifted_read, norm_read x0 x1 x2 _ _ h2]
  rfl

end Cert.ReferenceIdeal.Hand

end
-- ==== Proof.RefLoss.lean ====
import proofs.«429718_j54400055771394_3_alg».proof.Proof.RefRecon
import proofs.«429718_j54400055771394_3_alg».proof.Proof.RefComask
import Mathlib.Algebra.BigOperators.Fin

noncomputable section

namespace Cert.ReferenceIdeal.Hand

open Idealize.ShloMosaic Idealize.ShloMosaic.ValueIdx Cert.ReferenceIdeal Cert.ReferenceIdeal.Gen Cert.ReferenceIdeal.Read Cert.Spec Cert.Glue Recon

namespace Loss

/-- A sum over `Fin (m * n)` is the double sum over quotients and remainders by `n`. -/
theorem sum_divMod {M : Type*} [AddCommMonoid M] (m n : Nat) (f : Fin m → Fin n → M) :
    ∑ k : Fin (m * n), f k.divNat k.modNat = ∑ a, ∑ b, f a b := by
  rw [← Fintype.sum_prod_type (f := fun p : Fin m × Fin n => f p.1 p.2)]
  exact Fintype.sum_equiv finProdFinEquiv.symm _ _ fun _ => rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp idxEquiv4.symm f]
  simp only [Fintype.sum_prod_type]
  rfl

variable (x0 x1 : FVec Ideal SIn .f32) (b : Fin 64) (y : Fin 24) (z : Fin 12)

theorem chan_eq (k : Fin 2048) : chan ⟨k.val / 256, by omega⟩ ⟨k.val % 256, by omega⟩ = k :=
  Fin.ext (by dsimp only; omega)

theorem pos_eq (s : Fin 288) : pos (rowOf s) (colOf s) = s := Fin.ext (by dsimp only; omega)

theorem v0_read (k : Fin 2048) : val_main_v0 (F := Ideal) x0 x1 (ix4 b k y z)
    = featOf x0 x1 b ⟨k.val / 256, by omega⟩ ⟨k.val % 256, by omega⟩ (pos y z) := by
  rw [v0_at, featOf_eq_cat, at_cell y z (cat x0 x1 b _), chan_eq]

/-- The distance to the reconstruction over 2048 channels is the distance over 8 heads of 256 features. -/
theorem dist_of (p : Fin 64 → Fin 64) (R : FVec Ideal SOut .f32) (hR : R = reconOut mmR (featOf x0 x1) p) :
    Ideal.sqrt (∑ k : Fin 2048, sq (val_main_v0 (F := Ideal) x0 x1 (ix4 b k y z) - R (ix4 b k y z) + eps6))
      = distR (featOf x0 x1) p b (pos y z) := by
  simp only [hR, v0_read]
  exact congrArg Ideal.sqrt (sum_divMod 8 256 fun h d =>
    sq (featOf x0 x1 b h d (pos y z) - reconH mmR (featOf x0 x1 b h) (featOf x0 x1 (p b) h) d (pos y z) + eps6))

theorem idx_call6 (k : Fin 2048) : idx_main_call6_v1 (ix3 b y z) k = ix4 b k y z := by
  funext a; fin_cases a <;> rfl

theorem idx_call7 (k : Fin 2048) : idx_main_call7_v1 (ix3 b y z) k = ix4 b k y z := idx_call6 b y z k

theorem ref_dist_pos (x2 : IVec STab 32) (h2 : InRange x2) :
    val_main_v138 (F := Ideal) x0 x1 x2 (ix3 b y z) = distR (featOf x0 x1) (idxOf x2) b (pos y z) := by
  rw [← dist_of x0 x1 b y z _ _ (ref_recon x0 x1 x2 h2), val_main_v138_apply, val_main_call6_v1_apply,
    val_main_call6_cst_apply, Ideal.hostUnary_sqrt_def, Ideal.ofBits_def, Ideal.ofBits_zero_f32, zero_add]
  simp only [idx_call6, val_main_call6_v0_apply, val_main_v137_apply, val_main_v135_apply, val_main_v136_apply,
    val_main_cst_24_apply]
  rfl

theorem ref_dist_neg (x3 : IVec STab 32) (h3 : InRange x3) :
    val_main_v142 (F := Ideal) x0 x1 x3 (ix3 b y z) = distR (featOf x0 x1) (idxOf x3) b (pos y z) := by
  rw [← dist_of x0 x1 b y z _ _ (ref_recon_neg x0 x1 x3 h3), val_main_v142_apply, val_main_call7_v1_apply,
    val_main_call7_cst_apply, Ideal.hostUnary_sqrt_def, Ideal.ofBits_def, Ideal.ofBits_zero_f32, zero_add]
  simp only [idx_call7, val_main_call7_v0_apply, val_main_v141_apply,
    val_main_v139_apply, val_main_v140_apply, val_main_cst_25_apply]
  rfl

theorem idx_v149 (b' : Fin 64) : idx_main_v149 (ix4 b b' y z) = ix4 b (0 : Fin 1) y z := by
  funext a; fin_cases a <;> rfl

theorem idx_v150 (b' : Fin 64) : idx_main_v148 (idx_main_v150 (ix4 b b' y z)) = ix3 b' y z := by
  funext a; fin_cases a <;> rfl

end Loss

open Loss

variable (x0 x1 : FVec Ideal SIn .f32)

theorem ref_trip (x2 x3 : IVec STab 32) (h2 : InRange x2) (h3 : InRange x3) (b : Fin 64) (s : Fin 288) :
    val_main_v147 (F := Ideal) x0 x1 x2 x3 (ix3 b (rowOf s) (colOf s))
      = tripR (featOf x0 x1) (idxOf x2) (idxOf x3) b s := by
  rw [val_main_v147_apply, val_main_v145_apply, val_main_v143_apply, val_main_v146_apply, val_main_v144_apply,
    val_main_cst_26_apply, val_main_cst_27_apply, ref_dist_pos x0 x1 _ _ _ x2 h2, ref_dist_neg x0 x1 _ _ _ x3 h3, pos_eq]
  rfl

theorem ref_loss (x2 x3 : IVec STab 32) (h2 : InRange x2) (h3 : InRange x3) :
    val_main_v153 (F := Ideal) x0 x1 x2 x3 = fun _ => lossR (featOf x0 x1) (idxOf x2) (idxOf x3) := by
  funext i
  rw [val_main_v153_apply, val_main_v152_apply, val_main_cst_28_apply, val_main_cst_29_apply, Ideal.hostDivf_def,
    Ideal.ofBits_def, Ideal.ofBits_zero_f32, zero_add, sum_idx4]
  refine congrArg (Ideal.div · cdenom) (Finset.sum_congr rfl fun b _ => Finset.sum_congr rfl fun b' _ =>
    (sum_divMod 24 12 _).symm.trans (Finset.sum_congr rfl fun s _ => ?_))
  rw [val_main_v151_apply, val_main_v149_apply, val_main_v150_apply, val_main_v148_apply, idx_v149, idx_v150]
  exact congrArg₂ (· * ·) (ref_comask x0 x1 x2 h2 b s) (ref_trip x0 x1 x2 x3 h2 h3 b' s)

end Cert.ReferenceIdeal.Hand

end
-- ==== Proof.lean ====
import proofs.«429718_j54400055771394_3_alg».proof.Defs
import proofs.«429718_j54400055771394_3_alg».proof.Proof.Gen.Kernel
import proofs.«429718_j54400055771394_3_alg».proof.Proof.Gen.KernelIdeal
import proofs.«429718_j54400055771394_3_alg».proof.Proof.Gen.ReferenceIdeal
import proofs.«429718_j54400055771394_3_alg».proof.Proof.Gen.Pre_finite_inputs
import proofs.«429718_j54400055771394_3_alg».proof.Proof.RefRun
import proofs.«429718_j54400055771394_3_alg».proof.Proof.Frame
import proofs.«429718_j54400055771394_3_alg».proof.Proof.KFrame
import proofs.«429718_j54400055771394_3_alg».proof.Proof.OkOfRange
import proofs.«429718_j54400055771394_3_alg».proof.Proof.KOkOfRange
import proofs.«429718_j54400055771394_3_alg».proof.Proof.KernelOut
import proofs.«429718_j54400055771394_3_alg».proof.Proof.Algebra
import proofs.«429718_j54400055771394_3_alg».proof.Proof.Pre
import proofs.«429718_j54400055771394_3_alg».proof.Proof.RefRecon
import proofs.«429718_j54400055771394_3_alg».proof.Proof.RefLoss

noncomputable section

namespace Cert.Proof

open Idealize.ShloMosaic Idealize.SL.Sem

theorem frame_k : Cert.frame_Kernel := fun m ρ hpre =>
  (θ_run (Cert.Kernel.defs (F := Bits)) _ _).mono (fun _ h c => (h c).2.2)
    (Cert.Kernel.Hand.run_main (F := Bits) m ρ
      (Cert.Kernel.Hand.ok_of_range m (fun c => (Cert.PreHand.range_of_pre _ _ _ _ (hpre c)).1)
        (fun c => (Cert.PreHand.range_of_pre _ _ _ _ (hpre c)).2)))

theorem frame_ki : Cert.frame_KernelIdeal := fun m ρ hpre =>
  (θ_run (Cert.KernelIdeal.defs (F := Ideal)) _ _).mono (fun _ h c => (h c).2.2)
    (Cert.KernelIdeal.Hand.run_main (F := Ideal) m ρ
      (Cert.KernelIdeal.Hand.ok_of_range m (fun c => (Cert.PreHand.range_of_pre _ _ _ _ (hpre c)).1)
        (fun c => (Cert.PreHand.range_of_pre _ _ _ _ (hpre c)).2)))

theorem frame_ri : Cert.frame_ReferenceIdeal := fun m ρ _ =>
  (θ_run Cert.ReferenceIdeal.defs _ _).mono (fun _ h c => (h c).2.2) (Cert.ReferenceIdeal.Hand.Run.run (F := Ideal) m ρ)

theorem preserves : Cert.preserves_Kernel_KernelIdeal := trivial

/-- Both runs end with the reconstruction and the loss of the specification, which agree on real inputs. -/
theorem algebraic : Cert.algebraic_KernelIdeal_ReferenceIdeal := by
  intro m ρ m' ρ' hpre hagree
  have hr := fun c => Cert.PreHand.range_of_pre _ _ _ _ (hpre c)
  have hO := Cert.KernelIdeal.Hand.ok_of_range m (fun c => (hr c).1) (fun c => (hr c).2)
  refine ⟨fun c => Cert.KernelIdeal.Hand.outRecon m hO c, fun c => Cert.KernelIdeal.Hand.outLoss m hO c,
    Cert.KernelIdeal.Hand.run_main (F := Ideal) m ρ hO, ?_⟩
  refine (θ_run Cert.ReferenceIdeal.defs _ _).mono (fun _ h c => ⟨(h c).1.trans ?_, (h c).2.1.trans ?_, (h c).2.2⟩)
    (Cert.ReferenceIdeal.Hand.Run.run (F := Ideal) m' ρ')
  · show _ = Cert.KernelIdeal.Hand.outRecon m hO c
    rw [(hagree c).1, (hagree c).2.1, (hagree c).2.2.1,
      Cert.ReferenceIdeal.Hand.ref_recon _ _ _ (hr c).1, Cert.Spec.reconOut_mmR,
      Cert.KernelIdeal.Hand.outRecon_eq m hO c (hr c).1]
  · show _ = Cert.KernelIdeal.Hand.outLoss m hO c
    rw [(hagree c).1, (hagree c).2.1, (hagree c).2.2.1, (hagree c).2.2.2,
      Cert.ReferenceIdeal.Hand.ref_loss _ _ _ _ (hr c).1 (hr c).2,
      Cert.Spec.lossR_eq_lossK _ (Cert.PreHand.real_of_pre _ _ _ _ (hpre c)),
      Cert.KernelIdeal.Hand.outLoss_eq m hO c (hr c).1 (hr c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
